-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S320000 : Shape := ⟨1, ![320000]⟩
abbrev S512x32 : Shape := ⟨2, ![512, 32]⟩
abbrev S32x32 : Shape := ⟨2, ![32, 32]⟩
abbrev S32x16 : Shape := ⟨2, ![32, 16]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S320000 : S_.BroadcastsInDim S320000 (![] : Fin 0 → Fin S320000.rank)
  reducesTo_S320000_S_d0 : S320000.ReducesTo [0] S_
  bcast_S_S512x32 : S_.BroadcastsInDim S512x32 (![] : Fin 0 → Fin S512x32.rank)
  reducesTo_S512x32_S_d0_1 : S512x32.ReducesTo [0, 1] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_

variable [Facts]

def fn_part3 {F : FTy → Type} [FloatOps F] (main_arg2 : IVec S320000 32) (main_v50 : IVec S_ 1) : IVec S_ 1 :=
  let main_c_19 : IVec S_ 32 := constantI S_ 32 0#32
  let main_v51 : IVec S320000 32 := broadcastInDim S320000 ![] bcast_S_S320000 main_c_19
  let main_v52 : IVec S320000 1 := cmpi .sge main_arg2 main_v51
  let main_c_20 : IVec S_ 32 := constantI S_ 32 10000#32
  let main_v53 : IVec S320000 32 := broadcastInDim S320000 ![] bcast_S_S320000 main_c_20
  let main_v54 : IVec S320000 1 := cmpi .slt main_arg2 main_v53
  let main_v55 : IVec S320000 1 := andi main_v52 main_v54
  let main_c_21 : IVec S_ 1 := constantI S_ 1 1#1
  let main_v56 : IVec S_ 1 := (fun x v => Host.reduce IntOp.andi x v reducesTo_S320000_S_d0 h_S_) main_v55 main_c_21
  let main_v57 : IVec S_ 1 := andi main_v50 main_v56
  main_v57

def fn_part2 {F : FTy → Type} [FloatOps F] (main_arg1 : IVec S320000 32) (main_arg2 : IVec S320000 32) (main_arg9 : FVec F S32x32 .f32) (main_arg10 : FVec F S32x16 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32x16 .f32 := Host.absf main_arg10
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_c_16 : IVec S_ 32 := constantI S_ 32 0#32
  let main_v44 : IVec S320000 32 := broadcastInDim S320000 ![] bcast_S_S320000 main_c_16
  let main_v45 : IVec S320000 1 := cmpi .sge main_arg1 main_v44
  let main_c_17 : IVec S_ 32 := constantI S_ 32 10000#32
  let main_v46 : IVec S320000 32 := broadcastInDim S320000 ![] bcast_S_S320000 main_c_17
  let main_v47 : IVec S320000 1 := cmpi .slt main_arg1 main_v46
  let main_v48 : IVec S320000 1 := andi main_v45 main_v47
  let main_c_18 : IVec S_ 1 := constantI S_ 1 1#1
  let main_v49 : IVec S_ 1 := (fun x v => Host.reduce IntOp.andi x v reducesTo_S320000_S_d0 h_S_) main_v48 main_c_18
  let main_v50 : IVec S_ 1 := andi main_v43 main_v49
  fn_part3 (F := F) main_arg2 main_v50

def fn_part1 {F : FTy → Type} [FloatOps F] (main_arg1 : IVec S320000 32) (main_arg2 : IVec S320000 32) (main_arg6 : FVec F S32x32 .f32) (main_arg7 : FVec F S32x32 .f32) (main_arg8 : FVec F S32x32 .f32) (main_arg9 : FVec F S32x32 .f32) (main_arg10 : FVec F S32x16 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32x32 .f32 := Host.absf main_arg6
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32x32 .f32 := Host.absf main_arg8
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg1 main_arg2 main_arg9 main_arg10 main_v33

def fn {F : FTy → Type} [FloatOps F] (main_arg0 : FVec F S10000x512 .f32) (main_arg1 : IVec S320000 32) (main_arg2 : IVec S320000 32) (main_arg3 : FVec F S320000 .f32) (main_arg4 : FVec F S512x32 .f32) (main_arg5 : FVec F S32x32 .f32) (main_arg6 : FVec F S32x32 .f32) (main_arg7 : FVec F S32x32 .f32) (main_arg8 : FVec F S32x32 .f32) (main_arg9 : FVec F S32x32 .f32) (main_arg10 : FVec F S32x16 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S320000 .f32 := Host.absf main_arg3
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S512x32 .f32 := Host.absf main_arg4
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg1 main_arg2 main_arg6 main_arg7 main_arg8 main_arg9 main_arg10 main_v13 main_v16
-- ==== Kernel.lean ====
abbrev S10000x512 : Shape := ⟨2, ![10000, 512]⟩
abbrev S320000 : Shape := ⟨1, ![320000]⟩
abbrev S512x32 : Shape := ⟨2, ![512, 32]⟩
abbrev S32x32 : Shape := ⟨2, ![32, 32]⟩
abbrev S32x16 : Shape := ⟨2, ![32, 16]⟩
abbrev S_ : Shape := ⟨0, ![]⟩
abbrev S10000x10000 : Shape := ⟨2, ![10000, 10000]⟩
abbrev S320000x1 : Shape := ⟨2, ![320000, 1]⟩
abbrev S320000x2 : Shape := ⟨2, ![320000, 2]⟩
abbrev S10000x32 : Shape := ⟨2, ![10000, 32]⟩
abbrev S400x10000 : Shape := ⟨2, ![400, 10000]⟩
abbrev S400x32 : Shape := ⟨2, ![400, 32]⟩
abbrev S10000x16 : Shape := ⟨2, ![10000, 16]⟩
abbrev S400x16 : Shape := ⟨2, ![400, 16]⟩
abbrev S100000000 : Shape := ⟨1, ![100000000]⟩

abbrev nBuf : Space → Nat
  | .hbm => 55
  | .vmem => 40
  | .smem => 0
  | _ => 0

abbrev bufTy : (tb : Table) → Fin (tcTables nBuf tb) → BufTy
  | .hbm, ⟨0, _⟩ => ⟨S10000x512, .f32⟩
  | .hbm, ⟨1, _⟩ => ⟨S320000, .i32⟩
  | .hbm, ⟨2, _⟩ => ⟨S320000, .i32⟩
  | .hbm, ⟨3, _⟩ => ⟨S320000, .f32⟩
  | .hbm, ⟨4, _⟩ => ⟨S512x32, .f32⟩
  | .hbm, ⟨5, _⟩ => ⟨S32x32, .f32⟩
  | .hbm, ⟨6, _⟩ => ⟨S32x32, .f32⟩
  | .hbm, ⟨7, _⟩ => ⟨S32x32, .f32⟩
  | .hbm, ⟨8, _⟩ => ⟨S32x32, .f32⟩
  | .hbm, ⟨9, _⟩ => ⟨S32x32, .f32⟩
  | .hbm, ⟨10, _⟩ => ⟨S32x16, .f32⟩
  | .hbm, ⟨11, _⟩ => ⟨S_, .f32⟩
  | .hbm, ⟨12, _⟩ => ⟨S10000x10000, .f32⟩
  | .hbm, ⟨13, _⟩ => ⟨S_, .i32⟩
  | .hbm, ⟨14, _⟩ => ⟨S320000, .i32⟩
  | .hbm, ⟨15, _⟩ => ⟨S320000, .i1⟩
  | .hbm, ⟨16, _⟩ => ⟨S_, .i32⟩
  | .hbm, ⟨17, _⟩ => ⟨S320000, .i32⟩
  | .hbm, ⟨18, _⟩ => ⟨S320000, .i32⟩
  | .hbm, ⟨19, _⟩ => ⟨S320000, .i32⟩
  | .hbm, ⟨20, _⟩ => ⟨S_, .i32⟩
  | .hbm, ⟨21, _⟩ => ⟨S320000, .i32⟩
  | .hbm, ⟨22, _⟩ => ⟨S320000, .i1⟩
  | .hbm, ⟨23, _⟩ => ⟨S_, .i32⟩
  | .hbm, ⟨24, _⟩ => ⟨S320000, .i32⟩
  | .hbm, ⟨25, _⟩ => ⟨S320000, .i32⟩
  | .hbm, ⟨26, _⟩ => ⟨S320000, .i32⟩
  | .hbm, ⟨27, _⟩ => ⟨S320000x1, .i32⟩
  | .hbm, ⟨28, _⟩ => ⟨S320000x1, .i32⟩
  | .hbm, ⟨29, _⟩ => ⟨S320000x2, .i32⟩
  | .hbm, ⟨30, _⟩ => ⟨S10000x10000, .f32⟩
  | .hbm, ⟨31, _⟩ => ⟨S10000x10000, .bf16⟩
  | .hbm, ⟨32, _⟩ => ⟨S10000x32, .f32⟩
  | .hbm, ⟨33, _⟩ => ⟨S10000x32, .bf16⟩
  | .hbm, ⟨34, _⟩ => ⟨S10000x32, .bf16⟩
  | .hbm, ⟨35, _⟩ => ⟨S10000x32, .f32⟩
  | .hbm, ⟨36, _⟩ => ⟨S10000x32, .bf16⟩
  | .hbm, ⟨37, _⟩ => ⟨S10000x32, .bf16⟩
  | .hbm, ⟨38, _⟩ => ⟨S10000x32, .f32⟩
  | .hbm, ⟨39, _⟩ => ⟨S10000x32, .bf16⟩
  | .hbm, ⟨40, _⟩ => ⟨S10000x32, .bf16⟩
  | .hbm, ⟨41, _⟩ => ⟨S10000x32, .f32⟩
  | .hbm, ⟨42, _⟩ => ⟨S10000x32, .bf16⟩
  | .hbm, ⟨43, _⟩ => ⟨S10000x32, .bf16⟩
  | .hbm, ⟨44, _⟩ => ⟨S10000x32, .f32⟩
  | .hbm, ⟨45, _⟩ => ⟨S10000x32, .bf16⟩
  | .hbm, ⟨46, _⟩ => ⟨S10000x32, .bf16⟩
  | .hbm, ⟨47, _⟩ => ⟨S10000x32, .f32⟩
  | .hbm, ⟨48, _⟩ => ⟨S10000x32, .bf16⟩
  | .hbm, ⟨49, _⟩ => ⟨S10000x32, .bf16⟩
  | .hbm, ⟨50, _⟩ => ⟨S10000x16, .f32⟩
  | .hbm, ⟨51, _⟩ => ⟨S10000x16, .bf16⟩
  | .hbm, ⟨52, _⟩ => ⟨S10000x16, .bf16⟩
  | .hbm, ⟨53, _⟩ => ⟨S10000x10000, .f32⟩
  | .hbm, ⟨54, _⟩ => ⟨S100000000, .f32⟩
  | .local _ .vmem, ⟨0, _⟩ => ⟨S400x10000, .bf16⟩
  | .local _ .vmem, ⟨1, _⟩ => ⟨S400x10000, .bf16⟩
  | .local _ .vmem, ⟨2, _⟩ => ⟨S10000x32, .bf16⟩
  | .local _ .vmem, ⟨3, _⟩ => ⟨S400x32, .bf16⟩
  | .local _ .vmem, ⟨4, _⟩ => ⟨S400x32, .bf16⟩
  | .local _ .vmem, ⟨5, _⟩ => ⟨S400x10000, .bf16⟩
  | .local _ .vmem, ⟨6, _⟩ => ⟨S400x10000, .bf16⟩
  | .local _ .vmem, ⟨7, _⟩ => ⟨S10000x32, .bf16⟩
  | .local _ .vmem, ⟨8, _⟩ => ⟨S400x32, .bf16⟩
  | .local _ .vmem, ⟨9, _⟩ => ⟨S400x32, .bf16⟩
  | .local _ .vmem, ⟨10, _⟩ => ⟨S400x10000, .bf16⟩
  | .local _ .vmem, ⟨11, _⟩ => ⟨S400x10000, .bf16⟩
  | .local _ .vmem, ⟨12, _⟩ => ⟨S10000x32, .bf16⟩
  | .local _ .vmem, ⟨13, _⟩ => ⟨S400x32, .bf16⟩
  | .local _ .vmem, ⟨14, _⟩ => ⟨S400x32, .bf16⟩
  | .local _ .vmem, ⟨15, _⟩ => ⟨S400x10000, .bf16⟩
  | .local _ .vmem, ⟨16, _⟩ => ⟨S400x10000, .bf16⟩
  | .local _ .vmem, ⟨17, _⟩ => ⟨S10000x32, .bf16⟩
  | .local _ .vmem, ⟨18, _⟩ => ⟨S400x32, .bf16⟩
  | .local _ .vmem, ⟨19, _⟩ => ⟨S400x32, .bf16⟩
  | .local _ .vmem, ⟨20, _⟩ => ⟨S400x10000, .bf16⟩
  | .local _ .vmem, ⟨21, _⟩ => ⟨S400x10000, .bf16⟩
  | .local _ .vmem, ⟨22, _⟩ => ⟨S10000x32, .bf16⟩
  | .local _ .vmem, ⟨23, _⟩ => ⟨S400x32, .bf16⟩
  | .local _ .vmem, ⟨24, _⟩ => ⟨S400x32, .bf16⟩
  | .local _ .vmem, ⟨25, _⟩ => ⟨S400x10000, .bf16⟩
  | .local _ .vmem, ⟨26, _⟩ => ⟨S400x10000, .bf16⟩
  | .local _ .vmem, ⟨27, _⟩ => ⟨S10000x32, .bf16⟩
  | .local _ .vmem, ⟨28, _⟩ => ⟨S400x32, .bf16⟩
  | .local _ .vmem, ⟨29, _⟩ => ⟨S400x32, .bf16⟩
  | .local _ .vmem, ⟨30, _⟩ => ⟨S400x10000, .bf16⟩
  | .local _ .vmem, ⟨31, _⟩ => ⟨S400x10000, .bf16⟩
  | .local _ .vmem, ⟨32, _⟩ => ⟨S10000x16, .bf16⟩
  | .local _ .vmem, ⟨33, _⟩ => ⟨S400x16, .bf16⟩
  | .local _ .vmem, ⟨34, _⟩ => ⟨S400x16, .bf16⟩
  | .local _ .vmem, ⟨35, _⟩ => ⟨S400x16, .bf16⟩
  | .local _ .vmem, ⟨36, _⟩ => ⟨S400x16, .bf16⟩
  | .local _ .vmem, ⟨37, _⟩ => ⟨S10000x16, .bf16⟩
  | .local _ .vmem, ⟨38, _⟩ => ⟨S400x10000, .f32⟩
  | .local _ .vmem, ⟨39, _⟩ => ⟨S400x10000, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x32 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x32 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x32 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x32 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x32 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x32 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x32 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S400x32 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S400x10000 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10000x16 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S400x16 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S400x16 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S10000x16 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S400x10000 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  bcast_S_S10000x10000 : S_.BroadcastsInDim S10000x10000 (![] : Fin 0 → Fin S10000x10000.rank)
  bcast_S_S320000 : S_.BroadcastsInDim S320000 (![] : Fin 0 → Fin S320000.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  bitsLt_bf16_f32 : FTy.bits .bf16 < FTy.bits .f32
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S400x32_S400x32_0_0 : ∀ a, (![0, 0] : Fin 2 → Nat) a + S400x32.size a ≤ S400x32.size a
  h_S400x32 : 0 < S400x32.numel
  packedbf16_S400x32_S400x32_0_0 : (Rect.unit (s := S400x32) ![0, 0] S400x32.size inb_S400x32_S400x32_0_0).PackedRows (EltTy.packing .bf16)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S400x16_S400x16_0_0 : ∀ a, (![0, 0] : Fin 2 → Nat) a + S400x16.size a ≤ S400x16.size a
  h_S400x16 : 0 < S400x16.numel
  packedbf16_S400x16_S400x16_0_0 : (Rect.unit (s := S400x16) ![0, 0] S400x16.size inb_S400x16_S400x16_0_0).PackedRows (EltTy.packing .bf16)
  shapeCasts_S400x16_S400x16 : S400x16.ShapeCasts S400x16
  shapeCasts_S10000x10000_S100000000 : S10000x10000.ShapeCasts S100000000
  scatter_S10000x10000_S320000x2_S320000_n_01_01_1_wf : ScatterDims.WF S10000x10000 S320000x2 S320000 [] [0, 1] [0, 1] 1
  dot_S10000x512_S512x32_S10000x32_1_0_0_1_n_n_wf : DotDims.WF S10000x512 S512x32 S10000x32 [1] [0] [0] [1] [] []
  dot_S400x10000_S10000x32_S400x32_1_0_0_1_n_n_wf : DotDims.WF S400x10000 S10000x32 S400x32 [1] [0] [0] [1] [] []
  dot_S10000x32_S32x32_S10000x32_1_0_0_1_n_n_wf : DotDims.WF S10000x32 S32x32 S10000x32 [1] [0] [0] [1] [] []
  dot_S10000x32_S32x16_S10000x16_1_0_0_1_n_n_wf : DotDims.WF S10000x32 S32x16 S10000x16 [1] [0] [0] [1] [] []
  dot_S400x10000_S10000x16_S400x16_1_0_0_1_n_n_wf : DotDims.WF S400x10000 S10000x16 S400x16 [1] [0] [0] [1] [] []
  dot_S400x16_S10000x16_S400x10000_1_1_0_0_n_n_wf : DotDims.WF S400x16 S10000x16 S400x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .bf16 = 32 ∨ (Rect.block (s := S10000x10000) S400x10000.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S10000x32.size a
  hwx0_1 : ∀ i : grid0.Coords, EltTy.bits .bf16 = 32 ∨ (Rect.block (s := S10000x32) S10000x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x32.size a ≤ S10000x32.size a
  hwx0_2 : ∀ i : grid0.Coords, EltTy.bits .bf16 = 32 ∨ (Rect.block (s := S10000x32) S400x32.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .bf16 = 32 ∨ (Rect.block (s := S10000x32) S10000x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x32.size a ≤ S10000x32.size a
  hwx1_2 : ∀ i : grid1.Coords, EltTy.bits .bf16 = 32 ∨ (Rect.block (s := S10000x32) S400x32.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S10000x32.size a
  hwx2_1 : ∀ i : grid2.Coords, EltTy.bits .bf16 = 32 ∨ (Rect.block (s := S10000x32) S10000x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x32.size a ≤ S10000x32.size a
  hwx2_2 : ∀ i : grid2.Coords, EltTy.bits .bf16 = 32 ∨ (Rect.block (s := S10000x32) S400x32.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S10000x32.size a
  hwx3_1 : ∀ i : grid3.Coords, EltTy.bits .bf16 = 32 ∨ (Rect.block (s := S10000x32) S10000x32.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x32.size a ≤ S10000x32.size a
  hwx3_2 : ∀ i : grid3.Coords, EltTy.bits .bf16 = 32 ∨ (Rect.block (s := S10000x32) S400x32.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .bf16 = 32 ∨ (Rect.block (s := S10000x10000) S400x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x32.size a ≤ S10000x32.size a
  hwx4_1 : ∀ i : grid4.Coords, EltTy.bits .bf16 = 32 ∨ (Rect.block (s := S10000x32) S10000x32.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x32.size a ≤ S10000x32.size a
  hwx4_2 : ∀ i : grid4.Coords, EltTy.bits .bf16 = 32 ∨ (Rect.block (s := S10000x32) S400x32.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .bf16 = 32 ∨ (Rect.block (s := S10000x10000) S400x10000.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x32.size a ≤ S10000x32.size a
  hwx5_1 : ∀ i : grid5.Coords, EltTy.bits .bf16 = 32 ∨ (Rect.block (s := S10000x32) S10000x32.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S400x32.size a ≤ S10000x32.size a
  hwx5_2 : ∀ i : grid5.Coords, EltTy.bits .bf16 = 32 ∨ (Rect.block (s := S10000x32) S400x32.size (cc5_transform_2 i) (hinb5_2 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S400x10000.size a ≤ S10000x10000.size a
  hwx6_0 : ∀ i : grid6.Coords, EltTy.bits .bf16 = 32 ∨ (Rect.block (s := S10000x10000) S400x10000.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10000x16.size a ≤ S10000x16.size a
  hwx6_1 : ∀ i : grid6.Coords, EltTy.bits .bf16 = 32 ∨ (Rect.block (s := S10000x16) S10000x16.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S400x16.size a ≤ S10000x16.size a
  hwx6_2 : ∀ i : grid6.Coords, EltTy.bits .bf16 = 32 ∨ (Rect.block (s := S10000x16) S400x16.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S400x16.size a ≤ S10000x16.size a
  hwx7_0 : ∀ i : grid7.Coords, EltTy.bits .bf16 = 32 ∨ (Rect.block (s := S10000x16) S400x16.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S10000x16.size a ≤ S10000x16.size a
  hwx7_1 : ∀ i : grid7.Coords, EltTy.bits .bf16 = 32 ∨ (Rect.block (s := S10000x16) S10000x16.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S400x10000.size a ≤ S10000x10000.size a
  hwx7_2 : ∀ i : grid7.Coords, EltTy.bits .f32 = 32 ∨ (Rect.block (s := S10000x10000) S400x10000.size (cc7_transform_2 i) (hinb7_2 i)).WholeWords (EltTy.packing .f32)

variable [Facts₀]

def scatter_S10000x10000_S320000x2_S320000_n_01_01_1 : ScatterDims S10000x10000 S320000x2 S320000 where
  updateWindowDims := []
  insertedWindowDims := [0, 1]
  scatterDimsToOperandDims := [0, 1]
  indexVectorDim := 1
  wf := scatter_S10000x10000_S320000x2_S320000_n_01_01_1_wf
def dot_S10000x512_S512x32_S10000x32_1_0_0_1_n_n : DotDims S10000x512 S512x32 S10000x32 where
  lhsContracting := [1]
  rhsContracting := [0]
  lhsNonContracting := [0]
  rhsNonContracting := [1]
  lhsBatch := []
  rhsBatch := []
  wf := dot_S10000x512_S512x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S10000x16_S400x10000_1_1_0_0_n_n : DotDims S400x16 S10000x16 S400x10000 where
  lhsContracting := [1]
  rhsContracting := [1]
  lhsNonContracting := [0]
  rhsNonContracting := [0]
  lhsBatch := []
  rhsBatch := []
  wf := dot_S400x16_S10000x16_S400x10000_1_1_0_0_n_n_wf

abbrev win0_0 : Pipeline.Window sig grid0 :=
  Pipeline.Window.ofSpec (Memref.whole main_v15) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S10000x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S400x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S400x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S10000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S400x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v15) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S10000x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v27) S400x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v15) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v29) S10000x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v30) S400x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v15) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v32) S10000x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v33) S400x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v15) S400x10000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v35) S10000x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v36) S400x16.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v36) S400x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v36) S10000x16.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v37) S400x10000.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S10000x512 : Shape := ⟨2, ![10000, 512]⟩
abbrev S320000 : Shape := ⟨1, ![320000]⟩
abbrev S512x32 : Shape := ⟨2, ![512, 32]⟩
abbrev S32x32 : Shape := ⟨2, ![32, 32]⟩
abbrev S32x16 : Shape := ⟨2, ![32, 16]⟩
abbrev S10000x32 : Shape := ⟨2, ![10000, 32]⟩
abbrev S320000x1 : Shape := ⟨2, ![320000, 1]⟩
abbrev S_ : Shape := ⟨0, ![]⟩
abbrev S320000x32 : Shape := ⟨2, ![320000, 32]⟩
abbrev S10000x16 : Shape := ⟨2, ![10000, 16]⟩
abbrev S320000x16 : Shape := ⟨2, ![320000, 16]⟩
abbrev S16x10000 : Shape := ⟨2, ![16, 10000]⟩
abbrev S10000x10000 : Shape := ⟨2, ![10000, 10000]⟩
abbrev S100000000 : Shape := ⟨1, ![100000000]⟩

abbrev nBuf : Space → Nat
  | .hbm => 151
  | .vmem => 0
  | .smem => 0
  | _ => 0

abbrev hbmTy0_0 (i : Nat) : BufTy := match i % 128 with
  | 0 => ⟨S10000x512, .f32⟩
  | 1 => ⟨S320000, .i32⟩
  | 2 => ⟨S320000, .i32⟩
  | 3 => ⟨S320000, .f32⟩
  | 4 => ⟨S512x32, .f32⟩
  | 5 => ⟨S32x32, .f32⟩
  | 6 => ⟨S32x32, .f32⟩
  | 7 => ⟨S32x32, .f32⟩
  | 8 => ⟨S32x32, .f32⟩
  | 9 => ⟨S32x32, .f32⟩
  | 10 => ⟨S32x16, .f32⟩
  | 11 => ⟨S10000x32, .f32⟩
  | 12 => ⟨S320000x1, .f32⟩
  | 13 => ⟨S_, .i32⟩
  | 14 => ⟨S320000, .i32⟩
  | 15 => ⟨S320000, .i1⟩
  | 16 => ⟨S_, .i32⟩
  | 17 => ⟨S320000, .i32⟩
  | 18 => ⟨S320000, .i32⟩
  | 19 => ⟨S320000, .i32⟩
  | 20 => ⟨S320000x1, .i32⟩
  | 21 => ⟨S320000x32, .f32⟩
  | 22 => ⟨S320000x32, .f32⟩
  | 23 => ⟨S320000x32, .f32⟩
  | 24 => ⟨S_, .f32⟩
  | 25 => ⟨S10000x32, .f32⟩
  | 26 => ⟨S320000x1, .i32⟩
  | 27 => ⟨S10000x32, .f32⟩
  | 28 => ⟨S_, .f32⟩
  | 29 => ⟨S10000x32, .f32⟩
  | 30 => ⟨S10000x32, .f32⟩
  | 31 => ⟨S10000x32, .f32⟩
  | 32 => ⟨S320000x1, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x32, .f32⟩
  | 42 => ⟨S320000x32, .f32⟩
  | 43 => ⟨S320000x32, .f32⟩
  | 44 => ⟨S_, .f32⟩
  | 45 => ⟨S10000x32, .f32⟩
  | 46 => ⟨S320000x1, .i32⟩
  | 47 => ⟨S10000x32, .f32⟩
  | 48 => ⟨S_, .f32⟩
  | 49 => ⟨S10000x32, .f32⟩
  | 50 => ⟨S10000x32, .f32⟩
  | 51 => ⟨S10000x32, .f32⟩
  | 52 => ⟨S320000x1, .f32⟩
  | 53 => ⟨S_, .i32⟩
  | 54 => ⟨S320000, .i32⟩
  | 55 => ⟨S320000, .i1⟩
  | 56 => ⟨S_, .i32⟩
  | 57 => ⟨S320000, .i32⟩
  | 58 => ⟨S320000, .i32⟩
  | 59 => ⟨S320000, .i32⟩
  | 60 => ⟨S320000x1, .i32⟩
  | 61 => ⟨S320000x32, .f32⟩
  | 62 => ⟨S320000x32, .f32⟩
  | 63 => ⟨S320000x32, .f32⟩
  | 64 => ⟨S_, .f32⟩
  | 65 => ⟨S10000x32, .f32⟩
  | 66 => ⟨S320000x1, .i32⟩
  | 67 => ⟨S10000x32, .f32⟩
  | 68 => ⟨S_, .f32⟩
  | 69 => ⟨S10000x32, .f32⟩
  | 70 => ⟨S10000x32, .f32⟩
  | 71 => ⟨S10000x32, .f32⟩
  | 72 => ⟨S320000x1, .f32⟩
  | 73 => ⟨S_, .i32⟩
  | 74 => ⟨S320000, .i32⟩
  | 75 => ⟨S320000, .i1⟩
  | 76 => ⟨S_, .i32⟩
  | 77 => ⟨S320000, .i32⟩
  | 78 => ⟨S320000, .i32⟩
  | 79 => ⟨S320000, .i32⟩
  | 80 => ⟨S320000x1, .i32⟩
  | 81 => ⟨S320000x32, .f32⟩
  | 82 => ⟨S320000x32, .f32⟩
  | 83 => ⟨S320000x32, .f32⟩
  | 84 => ⟨S_, .f32⟩
  | 85 => ⟨S10000x32, .f32⟩
  | 86 => ⟨S320000x1, .i32⟩
  | 87 => ⟨S10000x32, .f32⟩
  | 88 => ⟨S_, .f32⟩
  | 89 => ⟨S10000x32, .f32⟩
  | 90 => ⟨S10000x32, .f32⟩
  | 91 => ⟨S10000x32, .f32⟩
  | 92 => ⟨S320000x1, .f32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S320000x32, .f32⟩
  | 102 => ⟨S320000x32, .f32⟩
  | 103 => ⟨S320000x32, .f32⟩
  | 104 => ⟨S_, .f32⟩
  | 105 => ⟨S10000x32, .f32⟩
  | 106 => ⟨S320000x1, .i32⟩
  | 107 => ⟨S10000x32, .f32⟩
  | 108 => ⟨S_, .f32⟩
  | 109 => ⟨S10000x32, .f32⟩
  | 110 => ⟨S10000x32, .f32⟩
  | 111 => ⟨S10000x32, .f32⟩
  | 112 => ⟨S320000x1, .f32⟩
  | 113 => ⟨S_, .i32⟩
  | 114 => ⟨S320000, .i32⟩
  | 115 => ⟨S320000, .i1⟩
  | 116 => ⟨S_, .i32⟩
  | 117 => ⟨S320000, .i32⟩
  | 118 => ⟨S320000, .i32⟩
  | 119 => ⟨S320000, .i32⟩
  | 120 => ⟨S320000x1, .i32⟩
  | 121 => ⟨S320000x32, .f32⟩
  | 122 => ⟨S320000x32, .f32⟩
  | 123 => ⟨S320000x32, .f32⟩
  | 124 => ⟨S_, .f32⟩
  | 125 => ⟨S10000x32, .f32⟩
  | 126 => ⟨S320000x1, .i32⟩
  | 127 => ⟨S10000x32, .f32⟩
  | _ => ⟨S10000x512, .f32⟩

abbrev hbmTy0_1 (i : Nat) : BufTy := match i % 128 with
  | 0 => ⟨S_, .f32⟩
  | 1 => ⟨S10000x32, .f32⟩
  | 2 => ⟨S10000x32, .f32⟩
  | 3 => ⟨S10000x16, .f32⟩
  | 4 => ⟨S320000x1, .f32⟩
  | 5 => ⟨S_, .i32⟩
  | 6 => ⟨S320000, .i32⟩
  | 7 => ⟨S320000, .i1⟩
  | 8 => ⟨S_, .i32⟩
  | 9 => ⟨S320000, .i32⟩
  | 10 => ⟨S320000, .i32⟩
  | 11 => ⟨S320000, .i32⟩
  | 12 => ⟨S320000x1, .i32⟩
  | 13 => ⟨S320000x16, .f32⟩
  | 14 => ⟨S320000x16, .f32⟩
  | 15 => ⟨S320000x16, .f32⟩
  | 16 => ⟨S_, .f32⟩
  | 17 => ⟨S10000x16, .f32⟩
  | 18 => ⟨S320000x1, .i32⟩
  | 19 => ⟨S10000x16, .f32⟩
  | 20 => ⟨S16x10000, .f32⟩
  | 21 => ⟨S10000x10000, .f32⟩
  | 22 => ⟨S100000000, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_cst : Ref sig .tc := ⟨.hbm, 28, rfl⟩
abbrev main_call0_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call1_cst : Ref sig .tc := ⟨.hbm, 48, rfl⟩
abbrev main_call1_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call2_cst : Ref sig .tc := ⟨.hbm, 68, rfl⟩
abbrev main_call2_v0 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_7 : Ref sig .tc := ⟨.hbm, 73, rfl⟩
abbrev main_v47 : Ref sig .tc := ⟨.hbm, 74, rfl⟩
abbrev main_v48 : Ref sig .tc := ⟨.hbm, 75, rfl⟩
abbrev main_c_8 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_call3_cst : Ref sig .tc := ⟨.hbm, 88, rfl⟩
abbrev main_call3_v0 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_10 : Ref sig .tc := ⟨.hbm, 93, rfl⟩
abbrev main_v62 : Ref sig .tc := ⟨.hbm, 94, rfl⟩
abbrev main_v63 : Ref sig .tc := ⟨.hbm, 95, rfl⟩
abbrev main_c_11 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_12 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_call4_cst : Ref sig .tc := ⟨.hbm, 108, rfl⟩
abbrev main_call4_v0 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_13 : Ref sig .tc := ⟨.hbm, 113, rfl⟩
abbrev main_v77 : Ref sig .tc := ⟨.hbm, 114, rfl⟩
abbrev main_v78 : Ref sig .tc := ⟨.hbm, 115, rfl⟩
abbrev main_c_14 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_15 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_call5_cst : Ref sig .tc := ⟨.hbm, 128, rfl⟩
abbrev main_call5_v0 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_c_16 : Ref sig .tc := ⟨.hbm, 133, rfl⟩
abbrev main_v92 : Ref sig .tc := ⟨.hbm, 134, rfl⟩
abbrev main_v93 : Ref sig .tc := ⟨.hbm, 135, rfl⟩
abbrev main_c_17 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_18 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩

abbrev nD : Nat := 1
abbrev τ : Topo := Topo.v7x

variable {F : FTy → Type} [FloatOps F]

class Facts₀ : Prop where
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x32_0_1 : S320000x1.BroadcastsInDim S320000x32 (![0, 1] : Fin 2 → Fin S320000x32.rank)
  bcast_S_S10000x32 : S_.BroadcastsInDim S10000x32 (![] : Fin 0 → Fin S10000x32.rank)
  bcast_S320000x1_S320000x16_0_1 : S320000x1.BroadcastsInDim S320000x16 (![0, 1] : Fin 2 → Fin S320000x16.rank)
  bcast_S_S10000x16 : S_.BroadcastsInDim S10000x16 (![] : Fin 0 → Fin S10000x16.rank)
  transposes_S10000x16_S16x10000_1_0 : S10000x16.Transposes [1, 0] S16x10000
  shapeCasts_S10000x10000_S100000000 : S10000x10000.ShapeCasts S100000000
  dot_S10000x512_S512x32_S10000x32_1_0_0_1_n_n_wf : DotDims.WF S10000x512 S512x32 S10000x32 [1] [0] [0] [1] [] []
  gather_S10000x32_S320000x1_S320000x32_1_0_n_n_0_1_132_wf : GatherDims.WF S10000x32 S320000x1 S320000x32 [1] [0] [] [0] [] 1 ![1, 32]
  scatter_S10000x32_S320000x1_S320000x32_1_0_0_1_wf : ScatterDims.WF S10000x32 S320000x1 S320000x32 [1] [0] [0] 1
  dot_S10000x32_S32x32_S10000x32_1_0_0_1_n_n_wf : DotDims.WF S10000x32 S32x32 S10000x32 [1] [0] [0] [1] [] []
  dot_S10000x32_S32x16_S10000x16_1_0_0_1_n_n_wf : DotDims.WF S10000x32 S32x16 S10000x16 [1] [0] [0] [1] [] []
  gather_S10000x16_S320000x1_S320000x16_1_0_n_n_0_1_116_wf : GatherDims.WF S10000x16 S320000x1 S320000x16 [1] [0] [] [0] [] 1 ![1, 16]
  scatter_S10000x16_S320000x1_S320000x16_1_0_0_1_wf : ScatterDims.WF S10000x16 S320000x1 S320000x16 [1] [0] [0] 1
  dot_S10000x16_S16x10000_S10000x10000_1_0_0_1_n_n_wf : DotDims.WF S10000x16 S16x10000 S10000x10000 [1] [0] [0] [1] [] []

variable [Facts₀]

def dot_S10000x512_S512x32_S10000x32_1_0_0_1_n_n : DotDims S10000x512 S512x32 S10000x32 where
  lhsContracting := [1]
  rhsContracting := [0]
  lhsNonContracting := [0]
  rhsNonContracting := [1]
  lhsBatch := []
  rhsBatch := []
  wf := dot_S10000x512_S512x32_S10000x32_1_0_0_1_n_n_wf
def gather_S10000x32_S320000x1_S320000x32_1_0_n_n_0_1_132 : GatherDims S10000x32 S320000x1 S320000x32 where
  offsetDims := [1]
  collapsedSliceDims := [0]
  operandBatchingDims := []
  startIndicesBatchingDims := []
  startIndexMap := [0]
  indexVectorDim := 1
  sliceSizes := ![1, 32]
  wf := gather_S10000x32_S320000x1_S320000x32_1_0_n_n_0_1_132_wf
def scatter_S10000x32_S320000x1_S320000x32_1_0_0_1 : ScatterDims S10000x32 S320000x1 S320000x32 where
  updateWindowDims := [1]
  insertedWindowDims := [0]
  scatterDimsToOperandDims := [0]
  indexVectorDim := 1
  wf := scatter_S10000x32_S320000x1_S320000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S10000x16_S320000x1_S320000x16_1_0_n_n_0_1_116 : GatherDims S10000x16 S320000x1 S320000x16 where
  offsetDims := [1]
  collapsedSliceDims := [0]
  operandBatchingDims := []
  startIndicesBatchingDims := []
  startIndexMap := [0]
  indexVectorDim := 1
  sliceSizes := ![1, 16]
  wf := gather_S10000x16_S320000x1_S320000x16_1_0_n_n_0_1_116_wf
def scatter_S10000x16_S320000x1_S320000x16_1_0_0_1 : ScatterDims S10000x16 S320000x1 S320000x16 where
  updateWindowDims := [1]
  insertedWindowDims := [0]
  scatterDimsToOperandDims := [0]
  indexVectorDim := 1
  wf := scatter_S10000x16_S320000x1_S320000x16_1_0_0_1_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.KiRegion0.lean ====
import proofs.«403073_j42855183679829_3_alg».proof.Proof.Gen.KernelIdeal.Launch
import proofs.«403073_j42855183679829_3_alg».proof.Proof.Gen.KernelIdeal.Skeleton
import proofs.«403073_j42855183679829_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rA0 : Rect S400x10000 := Rect.unit (s := S400x10000) ![0, 0] S400x10000.size inb_S400x10000_S400x10000_0_0
abbrev rB0 : Rect S10000x32 := Rect.unit (s := S10000x32) ![0, 0] S10000x32.size inb_S10000x32_S10000x32_0_0
abbrev rO0 : Rect S400x32 := Rect.unit (s := S400x32) ![0, 0] S400x32.size inb_S400x32_S400x32_0_0

/-- The output block after the body: its one store, of the payload of the two input blocks, over the whole block. -/
def out0_2 (x0 : Vec F S400x10000 .bf16) (x1 : Vec F S10000x32 .bf16) : Vec F S400x32 .bf16 :=
  View.canon [⟨rO0, k0_pay1 (View.ld x0 rA0) (View.ld x1 rB0)⟩]

set_option maxHeartbeats 1000000 in
theorem sound_kernel0 (c : Dev nD) (E : Set ℕ) (i : grid0.Coords) (arg1 : Memref sig .tc .vmem S400x10000 .bf16) (harg1 : arg1.IsWhole) (arg2 : Memref sig .tc .vmem S10000x32 .bf16) (harg2 : arg2.IsWhole) (arg3 : Memref sig .tc .vmem S400x32 .bf16) (harg3 : arg3.IsWhole)
    (x0 : Vec F S400x10000 .bf16) (x1 : Vec F S10000x32 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__gcn_layer_kernel i arg1 harg1 arg2 harg2 arg3 harg3) K := by
  simp only [cc0__gcn_layer_kernel_eq_skeleton]; unfold cc0__gcn_layer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨rO0, _⟩] S400x32.size (by rfl))

/-- The same triple with a frame `P ∗ Q` carried through, the inputs handed over at contents known up to `h0`, `h1`. -/
theorem layer_body (c : Dev nD) (i : grid0.Coords) (arg1 : Memref sig .tc .vmem S400x10000 .bf16) (harg1 : arg1.IsWhole) (arg2 : Memref sig .tc .vmem S10000x32 .bf16) (harg2 : arg2.IsWhole) (arg3 : Memref sig .tc .vmem S400x32 .bf16) (harg3 : arg3.IsWhole)
    (x0 : Vec F S400x10000 .bf16) (x1 : Vec F S10000x32 .bf16) {D0 D1 D2 : Type} (B0 : D0 → Vec F S400x10000 .bf16) (B1 : D1 → Vec F S10000x32 .bf16) (B2 : D2 → Vec F S400x32 .bf16)
    (h0 : ∀ d, B0 d = x0) (h1 : ∀ d, B1 d = x1) (P Q : sProp 𝕄) :
    iprop(P ∗ Q ∗ (∃ d, owns (c : Thread nD τ) arg1 fullShare (B0 d)) ∗ (∃ d, owns (c : Thread nD τ) arg2 fullShare (B1 d)) ∗ (∃ d, owns (c : Thread nD τ) arg3 fullShare (B2 d)))
      ⊢ wp frame (wpE (defs₀ (F := F)) Variants.none c none) Set.univ (cc0__gcn_layer_kernel i arg1 harg1 arg2 harg2 arg3 harg3)
        (fun _ => iprop(P ∗ Q ∗ owns (c : Thread nD τ) arg1 fullShare x0 ∗ owns (c : Thread nD τ) arg2 fullShare x1 ∗ owns (c : Thread nD τ) arg3 fullShare (out0_2 x0 x1))) := by
  simp only [h0, h1]
  iintro ⟨HP, HQ, ⟨%d0, H0⟩, ⟨%d1, H1⟩, ⟨%d2, H2⟩⟩
  iapply (sound_kernel0 c Set.univ i arg1 harg1 arg2 harg2 arg3 harg3 x0 x1 _)
  isplitl [H0]; · iexact H0
  isplitl [H1]; · iexact H1
  isplitl [H2]; · iexists _; iexact H2
  iintro ⟨H0, H1, H2⟩
  isplitl [HP]; · iexact HP
  isplitl [HQ]; · iexact HQ
  isplitl [H0]; · iexact H0
  isplitl [H1]; · iexact H1
  iexact H2

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q := q
  owed _ := 0

variable (q : Fin cfg0.W → PosShare TreeShare)

theorem A_eq0 (c : Dev nD) (w : Fin cfg0.W) : (dat0 V q c).A w = V c (Pipeline.arrRef spec0 w) := rfl
theorem after0_2 (c : Dev nD) (t : Fin cfg0.N) : (dat0 V q c).after 2 t = out0_2 (iblk0 V c 0 t) (iblk0 V c 1 t) := by dsimp only [dat0]

/-- An input window's buffer holds its block at every point: fetched there, or the block index has not moved. -/
theorem before0_0 (c : Dev nD) (t : Fin cfg0.N) (d) : (dat0 V q c).before 0 t d = iblk0 V c 0 t :=
  (dat0 V q c).before_in_eq_fetched 0 rfl (fun _ => rfl) (fun _ _ _ => rfl) (fun _ => rfl) t d
theorem before0_1 (c : Dev nD) (t : Fin cfg0.N) (d) : (dat0 V q c).before 1 t d = iblk0 V c 1 t :=
  (dat0 V q c).before_in_eq_fetched 1 rfl (fun _ => rfl) (fun _ _ _ => rfl) (fun _ => rfl) t d

theorem body_obligation0 (c : Dev nD) : BodyObligation (dat0 (F := F) V q c) (defs₀ (F := F)) Variants.none () Set.univ := fun t => by
  rw [bigSep_W0, bigSep_W0, after0_2]
  exact layer_body c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) _ _ _ _ _ (before0_0 V q c t) (before0_1 V q c t) _ _

end Cert.KernelIdeal.Reg

end
-- ==== Proof.KiRegion1.lean ====
import proofs.«403073_j42855183679829_3_alg».proof.Proof.KiRegion0

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out0_2 (iblk1 V c 0 t) (iblk1 V c 1 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := rfl
theorem after1_2 (c : Dev nD) (t : Fin cfg1.N) : (dat1 V q c).after 2 t = out0_2 (iblk1 V c 0 t) (iblk1 V c 1 t) := rfl

/-- An input window's buffer holds its block at every point: fetched there, or the block index has not moved. -/
theorem before1_0 (c : Dev nD) (t : Fin cfg1.N) (d) : (dat1 V q c).before 0 t d = iblk1 V c 0 t :=
  (dat1 V q c).before_in_eq_fetched 0 rfl (fun _ => rfl) (fun _ _ _ => rfl) (fun _ => rfl) t d
theorem before1_1 (c : Dev nD) (t : Fin cfg1.N) (d) : (dat1 V q c).before 1 t d = iblk1 V c 1 t :=
  (dat1 V q c).before_in_eq_fetched 1 rfl (fun _ => rfl) (fun _ _ _ => rfl) (fun _ => rfl) t d

theorem body_obligation1 (c : Dev nD) : BodyObligation (dat1 (F := F) V q c) (defs₀ (F := F)) Variants.none () Set.univ := fun t => by
  rw [bigSep_W1, bigSep_W1]
  exact layer_body c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) _ _ _ _ _ (before1_0 V q c t) (before1_1 V q c t) _ _

end Cert.KernelIdeal.Reg

end
-- ==== Proof.KiRegion2.lean ====
import proofs.«403073_j42855183679829_3_alg».proof.Proof.KiRegion0

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out0_2 (iblk2 V c 0 t) (iblk2 V c 1 t)
  Φ _ := Pipeline.ΦA spec2 c
  q := q
  owed _ := 0

variable (q : Fin cfg2.W → PosShare TreeShare)

theorem A_eq2 (c : Dev nD) (w : Fin cfg2.W) : (dat2 V q c).A w = V c (Pipeline.arrRef spec2 w) := rfl
theorem after2_2 (c : Dev nD) (t : Fin cfg2.N) : (dat2 V q c).after 2 t = out0_2 (iblk2 V c 0 t) (iblk2 V c 1 t) := rfl

/-- An input window's buffer holds its block at every point: fetched there, or the block index has not moved. -/
theorem before2_0 (c : Dev nD) (t : Fin cfg2.N) (d) : (dat2 V q c).before 0 t d = iblk2 V c 0 t :=
  (dat2 V q c).before_in_eq_fetched 0 rfl (fun _ => rfl) (fun _ _ _ => rfl) (fun _ => rfl) t d
theorem before2_1 (c : Dev nD) (t : Fin cfg2.N) (d) : (dat2 V q c).before 1 t d = iblk2 V c 1 t :=
  (dat2 V q c).before_in_eq_fetched 1 rfl (fun _ => rfl) (fun _ _ _ => rfl) (fun _ => rfl) t d

theorem body_obligation2 (c : Dev nD) : BodyObligation (dat2 (F := F) V q c) (defs₀ (F := F)) Variants.none () Set.univ := fun t => by
  rw [bigSep_W2, bigSep_W2]
  exact layer_body c (grid2.coords t) (st2_0 t) (hstage2_0 ((cfg2.slots t 0).cast nbuf2_0)) (st2_1 t) (hstage2_1 ((cfg2.slots t 1).cast nbuf2_1))
    (st2_2 t) (hstage2_2 ((cfg2.slots t 2).cast nbuf2_2)) _ _ _ _ _ (before2_0 V q c t) (before2_1 V q c t) _ _

end Cert.KernelIdeal.Reg

end
-- ==== Proof.KiRegion3.lean ====
import proofs.«403073_j42855183679829_3_alg».proof.Proof.KiRegion0

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (q : Fin cfg3.W → PosShare TreeShare) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out0_2 (iblk3 V c 0 t) (iblk3 V c 1 t)
  Φ _ := Pipeline.ΦA spec3 c
  q := q
  owed _ := 0

variable (q : Fin cfg3.W → PosShare TreeShare)

theorem A_eq3 (c : Dev nD) (w : Fin cfg3.W) : (dat3 V q c).A w = V c (Pipeline.arrRef spec3 w) := rfl
theorem after3_2 (c : Dev nD) (t : Fin cfg3.N) : (dat3 V q c).after 2 t = out0_2 (iblk3 V c 0 t) (iblk3 V c 1 t) := rfl

/-- An input window's buffer holds its block at every point: fetched there, or the block index has not moved. -/
theorem before3_0 (c : Dev nD) (t : Fin cfg3.N) (d) : (dat3 V q c).before 0 t d = iblk3 V c 0 t :=
  (dat3 V q c).before_in_eq_fetched 0 rfl (fun _ => rfl) (fun _ _ _ => rfl) (fun _ => rfl) t d
theorem before3_1 (c : Dev nD) (t : Fin cfg3.N) (d) : (dat3 V q c).before 1 t d = iblk3 V c 1 t :=
  (dat3 V q c).before_in_eq_fetched 1 rfl (fun _ => rfl) (fun _ _ _ => rfl) (fun _ => rfl) t d

theorem body_obligation3 (c : Dev nD) : BodyObligation (dat3 (F := F) V q c) (defs₀ (F := F)) Variants.none () Set.univ := fun t => by
  rw [bigSep_W3, bigSep_W3]
  exact layer_body c (grid3.coords t) (st3_0 t) (hstage3_0 ((cfg3.slots t 0).cast nbuf3_0)) (st3_1 t) (hstage3_1 ((cfg3.slots t 1).cast nbuf3_1))
    (st3_2 t) (hstage3_2 ((cfg3.slots t 2).cast nbuf3_2)) _ _ _ _ _ (before3_0 V q c t) (before3_1 V q c t) _ _

end Cert.KernelIdeal.Reg

end
-- ==== Proof.KiRegion4.lean ====
import proofs.«403073_j42855183679829_3_alg».proof.Proof.KiRegion0

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (q : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out0_2 (iblk4 V c 0 t) (iblk4 V c 1 t)
  Φ _ := Pipeline.ΦA spec4 c
  q := q
  owed _ := 0

variable (q : Fin cfg4.W → PosShare TreeShare)

theorem A_eq4 (c : Dev nD) (w : Fin cfg4.W) : (dat4 V q c).A w = V c (Pipeline.arrRef spec4 w) := rfl
theorem after4_2 (c : Dev nD) (t : Fin cfg4.N) : (dat4 V q c).after 2 t = out0_2 (iblk4 V c 0 t) (iblk4 V c 1 t) := rfl

/-- An input window's buffer holds its block at every point: fetched there, or the block index has not moved. -/
theorem before4_0 (c : Dev nD) (t : Fin cfg4.N) (d) : (dat4 V q c).before 0 t d = iblk4 V c 0 t :=
  (dat4 V q c).before_in_eq_fetched 0 rfl (fun _ => rfl) (fun _ _ _ => rfl) (fun _ => rfl) t d
theorem before4_1 (c : Dev nD) (t : Fin cfg4.N) (d) : (dat4 V q c).before 1 t d = iblk4 V c 1 t :=
  (dat4 V q c).before_in_eq_fetched 1 rfl (fun _ => rfl) (fun _ _ _ => rfl) (fun _ => rfl) t d

theorem body_obligation4 (c : Dev nD) : BodyObligation (dat4 (F := F) V q c) (defs₀ (F := F)) Variants.none () Set.univ := fun t => by
  rw [bigSep_W4, bigSep_W4]
  exact layer_body c (grid4.coords t) (st4_0 t) (hstage4_0 ((cfg4.slots t 0).cast nbuf4_0)) (st4_1 t) (hstage4_1 ((cfg4.slots t 1).cast nbuf4_1))
    (st4_2 t) (hstage4_2 ((cfg4.slots t 2).cast nbuf4_2)) _ _ _ _ _ (before4_0 V q c t) (before4_1 V q c t) _ _

end Cert.KernelIdeal.Reg

end
-- ==== Proof.KiRegion5.lean ====
import proofs.«403073_j42855183679829_3_alg».proof.Proof.KiRegion0

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (q : Fin cfg5.W → PosShare TreeShare) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out0_2 (iblk5 V c 0 t) (iblk5 V c 1 t)
  Φ _ := Pipeline.ΦA spec5 c
  q := q
  owed _ := 0

variable (q : Fin cfg5.W → PosShare TreeShare)

theorem A_eq5 (c : Dev nD) (w : Fin cfg5.W) : (dat5 V q c).A w = V c (Pipeline.arrRef spec5 w) := rfl
theorem after5_2 (c : Dev nD) (t : Fin cfg5.N) : (dat5 V q c).after 2 t = out0_2 (iblk5 V c 0 t) (iblk5 V c 1 t) := rfl

/-- An input window's buffer holds its block at every point: fetched there, or the block index has not moved. -/
theorem before5_0 (c : Dev nD) (t : Fin cfg5.N) (d) : (dat5 V q c).before 0 t d = iblk5 V c 0 t :=
  (dat5 V q c).before_in_eq_fetched 0 rfl (fun _ => rfl) (fun _ _ _ => rfl) (fun _ => rfl) t d
theorem before5_1 (c : Dev nD) (t : Fin cfg5.N) (d) : (dat5 V q c).before 1 t d = iblk5 V c 1 t :=
  (dat5 V q c).before_in_eq_fetched 1 rfl (fun _ => rfl) (fun _ _ _ => rfl) (fun _ => rfl) t d

theorem body_obligation5 (c : Dev nD) : BodyObligation (dat5 (F := F) V q c) (defs₀ (F := F)) Variants.none () Set.univ := fun t => by
  rw [bigSep_W5, bigSep_W5]
  exact layer_body c (grid5.coords t) (st5_0 t) (hstage5_0 ((cfg5.slots t 0).cast nbuf5_0)) (st5_1 t) (hstage5_1 ((cfg5.slots t 1).cast nbuf5_1))
    (st5_2 t) (hstage5_2 ((cfg5.slots t 2).cast nbuf5_2)) _ _ _ _ _ (before5_0 V q c t) (before5_1 V q c t) _ _

end Cert.KernelIdeal.Reg

end
-- ==== Proof.KiRegion6.lean ====
import proofs.«403073_j42855183679829_3_alg».proof.Proof.Gen.KernelIdeal.Launch
import proofs.«403073_j42855183679829_3_alg».proof.Proof.Gen.KernelIdeal.Skeleton
import proofs.«403073_j42855183679829_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rA6 : Rect S400x10000 := Rect.unit (s := S400x10000) ![0, 0] S400x10000.size inb_S400x10000_S400x10000_0_0
abbrev rB6 : Rect S10000x16 := Rect.unit (s := S10000x16) ![0, 0] S10000x16.size inb_S10000x16_S10000x16_0_0
abbrev rO6 : Rect S400x16 := Rect.unit (s := S400x16) ![0, 0] S400x16.size inb_S400x16_S400x16_0_0

/-- The output block after the body: its one store, of the payload of the two input blocks, over the whole block. -/
def out6_2 (x0 : Vec F S400x10000 .bf16) (x1 : Vec F S10000x16 .bf16) : Vec F S400x16 .bf16 :=
  View.canon [⟨rO6, k6_pay1 (View.ld x0 rA6) (View.ld x1 rB6)⟩]

set_option maxHeartbeats 1000000 in
theorem sound_kernel6 (c : Dev nD) (E : Set ℕ) (i : grid6.Coords) (arg1 : Memref sig .tc .vmem S400x10000 .bf16) (harg1 : arg1.IsWhole) (arg2 : Memref sig .tc .vmem S10000x16 .bf16) (harg2 : arg2.IsWhole) (arg3 : Memref sig .tc .vmem S400x16 .bf16) (harg3 : arg3.IsWhole)
    (x0 : Vec F S400x10000 .bf16) (x1 : Vec F S10000x16 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__gcn_layer_kernel i arg1 harg1 arg2 harg2 arg3 harg3) K := by
  simp only [cc6__gcn_layer_kernel_eq_skeleton]; unfold cc6__gcn_layer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨rO6, _⟩] S400x16.size (by rfl))

/-- The same triple with a frame `P ∗ Q` carried through, the inputs handed over at contents known up to `h0`, `h1`. -/
theorem layer_body6 (c : Dev nD) (i : grid6.Coords) (arg1 : Memref sig .tc .vmem S400x10000 .bf16) (harg1 : arg1.IsWhole) (arg2 : Memref sig .tc .vmem S10000x16 .bf16) (harg2 : arg2.IsWhole) (arg3 : Memref sig .tc .vmem S400x16 .bf16) (harg3 : arg3.IsWhole)
    (x0 : Vec F S400x10000 .bf16) (x1 : Vec F S10000x16 .bf16) {D0 D1 D2 : Type} (B0 : D0 → Vec F S400x10000 .bf16) (B1 : D1 → Vec F S10000x16 .bf16) (B2 : D2 → Vec F S400x16 .bf16)
    (h0 : ∀ d, B0 d = x0) (h1 : ∀ d, B1 d = x1) (P Q : sProp 𝕄) :
    iprop(P ∗ Q ∗ (∃ d, owns (c : Thread nD τ) arg1 fullShare (B0 d)) ∗ (∃ d, owns (c : Thread nD τ) arg2 fullShare (B1 d)) ∗ (∃ d, owns (c : Thread nD τ) arg3 fullShare (B2 d)))
      ⊢ wp frame (wpE (defs₀ (F := F)) Variants.none c none) Set.univ (cc6__gcn_layer_kernel i arg1 harg1 arg2 harg2 arg3 harg3)
        (fun _ => iprop(P ∗ Q ∗ owns (c : Thread nD τ) arg1 fullShare x0 ∗ owns (c : Thread nD τ) arg2 fullShare x1 ∗ owns (c : Thread nD τ) arg3 fullShare (out6_2 x0 x1))) := by
  simp only [h0, h1]
  iintro ⟨HP, HQ, ⟨%d0, H0⟩, ⟨%d1, H1⟩, ⟨%d2, H2⟩⟩
  iapply (sound_kernel6 c Set.univ i arg1 harg1 arg2 harg2 arg3 harg3 x0 x1 _)
  isplitl [H0]; · iexact H0
  isplitl [H1]; · iexact H1
  isplitl [H2]; · iexists _; iexact H2
  iintro ⟨H0, H1, H2⟩
  isplitl [HP]; · iexact HP
  isplitl [HQ]; · iexact HQ
  isplitl [H0]; · iexact H0
  isplitl [H1]; · iexact H1
  iexact H2

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (q : Fin cfg6.W → PosShare TreeShare) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q := q
  owed _ := 0

variable (q : Fin cfg6.W → PosShare TreeShare)

theorem A_eq6 (c : Dev nD) (w : Fin cfg6.W) : (dat6 V q c).A w = V c (Pipeline.arrRef spec6 w) := rfl
theorem after6_2 (c : Dev nD) (t : Fin cfg6.N) : (dat6 V q c).after 2 t = out6_2 (iblk6 V c 0 t) (iblk6 V c 1 t) := by dsimp only [dat6]

/-- An input window's buffer holds its block at every point: fetched there, or the block index has not moved. -/
theorem before6_0 (c : Dev nD) (t : Fin cfg6.N) (d) : (dat6 V q c).before 0 t d = iblk6 V c 0 t :=
  (dat6 V q c).before_in_eq_fetched 0 rfl (fun _ => rfl) (fun _ _ _ => rfl) (fun _ => rfl) t d
theorem before6_1 (c : Dev nD) (t : Fin cfg6.N) (d) : (dat6 V q c).before 1 t d = iblk6 V c 1 t :=
  (dat6 V q c).before_in_eq_fetched 1 rfl (fun _ => rfl) (fun _ _ _ => rfl) (fun _ => rfl) t d

theorem body_obligation6 (c : Dev nD) : BodyObligation (dat6 (F := F) V q c) (defs₀ (F := F)) Variants.none () Set.univ := fun t => by
  rw [bigSep_W6, bigSep_W6, after6_2]
  exact layer_body6 c (grid6.coords t) (st6_0 t) (hstage6_0 ((cfg6.slots t 0).cast nbuf6_0)) (st6_1 t) (hstage6_1 ((cfg6.slots t 1).cast nbuf6_1))
    (st6_2 t) (hstage6_2 ((cfg6.slots t 2).cast nbuf6_2)) _ _ _ _ _ (before6_0 V q c t) (before6_1 V q c t) _ _

end Cert.KernelIdeal.Reg

end
-- ==== Proof.KiRegion7.lean ====
import proofs.«403073_j42855183679829_3_alg».proof.Proof.Gen.KernelIdeal.Launch
import proofs.«403073_j42855183679829_3_alg».proof.Proof.Gen.KernelIdeal.Skeleton
import proofs.«403073_j42855183679829_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rA7 : Rect S400x16 := Rect.unit (s := S400x16) ![0, 0] S400x16.size inb_S400x16_S400x16_0_0
abbrev rB7 : Rect S10000x16 := Rect.unit (s := S10000x16) ![0, 0] S10000x16.size inb_S10000x16_S10000x16_0_0
abbrev rO7 : Rect S400x10000 := Rect.unit (s := S400x10000) ![0, 0] S400x10000.size inb_S400x10000_S400x10000_0_0

/-- The output block after the body: its one store, of the payload of the two input blocks, over the whole block. -/
def out7_2 (x0 : Vec F S400x16 .bf16) (x1 : Vec F S10000x16 .bf16) : Vec F S400x10000 .f32 :=
  View.canon [⟨rO7, k7_pay1 (View.ld x0 rA7) (View.ld x1 rB7)⟩]

set_option maxHeartbeats 1000000 in
theorem sound_kernel7 (c : Dev nD) (E : Set ℕ) (i : grid7.Coords) (arg1 : Memref sig .tc .vmem S400x16 .bf16) (harg1 : arg1.IsWhole) (arg2 : Memref sig .tc .vmem S10000x16 .bf16) (harg2 : arg2.IsWhole) (arg3 : Memref sig .tc .vmem S400x10000 .f32) (harg3 : arg3.IsWhole)
    (x0 : Vec F S400x16 .bf16) (x1 : Vec F S10000x16 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__zz_kernel i arg1 harg1 arg2 harg2 arg3 harg3) K := by
  simp only [cc7__zz_kernel_eq_skeleton]; unfold cc7__zz_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨rO7, _⟩] S400x10000.size (by rfl))

/-- The same triple with a frame `P ∗ Q` carried through, the inputs handed over at contents known up to `h0`, `h1`. -/
theorem layer_body7 (c : Dev nD) (i : grid7.Coords) (arg1 : Memref sig .tc .vmem S400x16 .bf16) (harg1 : arg1.IsWhole) (arg2 : Memref sig .tc .vmem S10000x16 .bf16) (harg2 : arg2.IsWhole) (arg3 : Memref sig .tc .vmem S400x10000 .f32) (harg3 : arg3.IsWhole)
    (x0 : Vec F S400x16 .bf16) (x1 : Vec F S10000x16 .bf16) {D0 D1 D2 : Type} (B0 : D0 → Vec F S400x16 .bf16) (B1 : D1 → Vec F S10000x16 .bf16) (B2 : D2 → Vec F S400x10000 .f32)
    (h0 : ∀ d, B0 d = x0) (h1 : ∀ d, B1 d = x1) (P Q : sProp 𝕄) :
    iprop(P ∗ Q ∗ (∃ d, owns (c : Thread nD τ) arg1 fullShare (B0 d)) ∗ (∃ d, owns (c : Thread nD τ) arg2 fullShare (B1 d)) ∗ (∃ d, owns (c : Thread nD τ) arg3 fullShare (B2 d)))
      ⊢ wp frame (wpE (defs₀ (F := F)) Variants.none c none) Set.univ (cc7__zz_kernel i arg1 harg1 arg2 harg2 arg3 harg3)
        (fun _ => iprop(P ∗ Q ∗ owns (c : Thread nD τ) arg1 fullShare x0 ∗ owns (c : Thread nD τ) arg2 fullShare x1 ∗ owns (c : Thread nD τ) arg3 fullShare (out7_2 x0 x1))) := by
  simp only [h0, h1]
  iintro ⟨HP, HQ, ⟨%d0, H0⟩, ⟨%d1, H1⟩, ⟨%d2, H2⟩⟩
  iapply (sound_kernel7 c Set.univ i arg1 harg1 arg2 harg2 arg3 harg3 x0 x1 _)
  isplitl [H0]; · iexact H0
  isplitl [H1]; · iexact H1
  isplitl [H2]; · iexists _; iexact H2
  iintro ⟨H0, H1, H2⟩
  isplitl [HP]; · iexact HP
  isplitl [HQ]; · iexact HQ
  isplitl [H0]; · iexact H0
  isplitl [H1]; · iexact H1
  iexact H2

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat7 (q : Fin cfg7.W → PosShare TreeShare) (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q := q
  owed _ := 0

variable (q : Fin cfg7.W → PosShare TreeShare)

theorem A_eq7 (c : Dev nD) (w : Fin cfg7.W) : (dat7 V q c).A w = V c (Pipeline.arrRef spec7 w) := rfl
theorem after7_2 (c : Dev nD) (t : Fin cfg7.N) : (dat7 V q c).after 2 t = out7_2 (iblk7 V c 0 t) (iblk7 V c 1 t) := by dsimp only [dat7]

/-- An input window's buffer holds its block at every point: fetched there, or the block index has not moved. -/
theorem before7_0 (c : Dev nD) (t : Fin cfg7.N) (d) : (dat7 V q c).before 0 t d = iblk7 V c 0 t :=
  (dat7 V q c).before_in_eq_fetched 0 rfl (fun _ => rfl) (fun _ _ _ => rfl) (fun _ => rfl) t d
theorem before7_1 (c : Dev nD) (t : Fin cfg7.N) (d) : (dat7 V q c).before 1 t d = iblk7 V c 1 t :=
  (dat7 V q c).before_in_eq_fetched 1 rfl (fun _ => rfl) (fun _ _ _ => rfl) (fun _ => rfl) t d

theorem body_obligation7 (c : Dev nD) : BodyObligation (dat7 (F := F) V q c) (defs₀ (F := F)) Variants.none () Set.univ := fun t => by
  rw [bigSep_W7, bigSep_W7, after7_2]
  exact layer_body7 c (grid7.coords t) (st7_0 t) (hstage7_0 ((cfg7.slots t 0).cast nbuf7_0)) (st7_1 t) (hstage7_1 ((cfg7.slots t 1).cast nbuf7_1))
    (st7_2 t) (hstage7_2 ((cfg7.slots t 2).cast nbuf7_2)) _ _ _ _ _ (before7_0 V q c t) (before7_1 V q c t) _ _

end Cert.KernelIdeal.Reg

end
-- ==== Proof.KiData.lean ====
import proofs.«403073_j42855183679829_3_alg».proof.Proof.KiRegion0
import proofs.«403073_j42855183679829_3_alg».proof.Proof.KiRegion1
import proofs.«403073_j42855183679829_3_alg».proof.Proof.KiRegion2
import proofs.«403073_j42855183679829_3_alg».proof.Proof.KiRegion3
import proofs.«403073_j42855183679829_3_alg».proof.Proof.KiRegion4
import proofs.«403073_j42855183679829_3_alg».proof.Proof.KiRegion5
import proofs.«403073_j42855183679829_3_alg».proof.Proof.KiRegion6
import proofs.«403073_j42855183679829_3_alg».proof.Proof.KiRegion7
import proofs.«403073_j42855183679829_3_alg».proof.Proof.Gen.KernelIdeal.Regions

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

abbrev qF {n : ℕ} : Fin n → PosShare TreeShare := fun _ => fullShare

def q7 : Fin cfg7.W → PosShare TreeShare
  | ⟨0, _⟩ => fullShare.left
  | ⟨1, _⟩ => fullShare.right
  | ⟨2, _⟩ => fullShare

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev EE : Fin 9 → Dev nD → sProp 𝕄 := fun _ c => R c

variable (m : (ℓ : Loc nD τ sig) → Buf (Elt F) ℓ) (outs : Outs (F := F))

abbrev T1 : (c : Dev nD) → (b : Ref sig .tc) → Buf (Elt F) ((c : Thread nD τ).loc b) := fun c b => V1 m c b
abbrev T3 : (c : Dev nD) → (b : Ref sig .tc) → Buf (Elt F) ((c : Thread nD τ).loc b) := fun c b => V3 m outs c b
abbrev T5 : (c : Dev nD) → (b : Ref sig .tc) → Buf (Elt F) ((c : Thread nD τ).loc b) := fun c b => V5 m outs c b
abbrev T7 : (c : Dev nD) → (b : Ref sig .tc) → Buf (Elt F) ((c : Thread nD τ).loc b) := fun c b => V7 m outs c b
abbrev T9 : (c : Dev nD) → (b : Ref sig .tc) → Buf (Elt F) ((c : Thread nD τ).loc b) := fun c b => V9 m outs c b
abbrev T11 : (c : Dev nD) → (b : Ref sig .tc) → Buf (Elt F) ((c : Thread nD τ).loc b) := fun c b => V11 m outs c b
abbrev T13 : (c : Dev nD) → (b : Ref sig .tc) → Buf (Elt F) ((c : Thread nD τ).loc b) := fun c b => V13 m outs c b
abbrev T14 : (c : Dev nD) → (b : Ref sig .tc) → Buf (Elt F) ((c : Thread nD τ).loc b) := fun c b => V14 m outs c b

-- Every region's proof data as one family, each at the contents its region is entered at.
def pdats : (p : Fin 8) → (c : Dev nD) → Dat τ (Elt F) Unit ℕ (UR sig nD τ) ℕ (cfgs p) c
  | ⟨0, _⟩ => fun c => dat0 (T1 m) qF c
  | ⟨1, _⟩ => fun c => dat1 (T3 m outs) qF c
  | ⟨2, _⟩ => fun c => dat2 (T5 m outs) qF c
  | ⟨3, _⟩ => fun c => dat3 (T7 m outs) qF c
  | ⟨4, _⟩ => fun c => dat4 (T9 m outs) qF c
  | ⟨5, _⟩ => fun c => dat5 (T11 m outs) qF c
  | ⟨6, _⟩ => fun c => dat6 (T13 m outs) qF c
  | ⟨7, _⟩ => fun c => dat7 (T14 m outs) q7 c

-- `outs` is consistent: each entry is the array its region's run ends with.
structure OutsOk : Prop where
  h0 : ∀ c, outs 2 main_v18 c = (dat0 (T1 m) qF c).arrAt 2 cfg0.N
  h1 : ∀ c, outs 4 main_v21 c = (dat1 (T3 m outs) qF c).arrAt 2 cfg1.N
  h2 : ∀ c, outs 6 main_v24 c = (dat2 (T5 m outs) qF c).arrAt 2 cfg2.N
  h3 : ∀ c, outs 8 main_v27 c = (dat3 (T7 m outs) qF c).arrAt 2 cfg3.N
  h4 : ∀ c, outs 10 main_v30 c = (dat4 (T9 m outs) qF c).arrAt 2 cfg4.N
  h5 : ∀ c, outs 12 main_v33 c = (dat5 (T11 m outs) qF c).arrAt 2 cfg5.N
  h6 : ∀ c, outs 14 main_v36 c = (dat6 (T13 m outs) qF c).arrAt 2 cfg6.N
  h7 : ∀ c, outs 15 main_v37 c = (dat7 (T14 m outs) q7 c).arrAt 2 cfg7.N

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Reg

end
-- ==== Proof.SegGen.lean ====
import Idealize.ShloMosaic.Lib.Pipeline.RegionsLoop
import Idealize.ShloMosaic.Lib.Pipeline.Frame

noncomputable section

namespace Cert.Reg

open Idealize.ShloMosaic Idealize.ShloMosaic.TcCoe Idealize.SL Idealize.SL.RA Idealize.SL.BI Idealize.SL.BI.BIBase Idealize.SL.ProofMode Idealize.SL.Sem
open scoped Idealize.SL.BI
open Idealize.ShloMosaic.Pipeline (Dat Cfg BodyObligation RegionSeg)

variable {nD : Nat} {τ : Topo} {sig : RefSig} {Val : EltTy → Type} {Λ₀ : Labels} {P : Type} [Fintype P]
  {cfgs : P → Cfg sig Λ₀} {D : (p : P) → (c : Dev nD) → Dat τ Val Unit ℕ (UR sig nD τ) ℕ (cfgs p) c} {defs₀ : Defs nD τ sig Val Λ₀}

/-- Proof data that owes nothing, bounds no recorded pair and keeps the class's invariant. -/
structure Plain {cfg : Cfg sig Λ₀} {c : Dev nD} (d : Dat τ Val Unit ℕ (UR sig nD τ) ℕ cfg c) : Prop where
  Φ : ∀ t, d.Φ t = Pipeline.ΦA cfg.spec c := by intro; rfl
  owed : ∀ t, d.owed t = 0 := by intro; rfl
  recorded : ∀ t, d.recorded t = Set.univ := by intro; rfl

/-- Plain proof data that holds every array whole, at what `V` has there. -/
structure Whole {cfg : Cfg sig Λ₀} {c : Dev nD} (d : Dat τ Val Unit ℕ (UR sig nD τ) ℕ cfg c) (V : Valuation τ sig Val) : Prop extends Plain d where
  q : ∀ w, d.q w = fullShare := by intro; rfl
  A : ∀ w, d.A w = V (Pipeline.arrRef cfg.spec w) := by intro; rfl

/-- A region from how its arrays leave the unscoped buffers at `Vin` and return to them at `Vout`: the register and the dues ride along. -/
def regOfSplit (p : P) (win : Pipeline.WinFacts₀ (cfgs p).spec) (block_pos : ∀ w, 0 < ((cfgs p).spec w).block.numel)
    (stage_whole : ∀ w s, (((cfgs p).spec w).stage s).IsWhole) (Vin Vout : Dev nD → Valuation τ sig Val)
    (hD : ∀ c, Plain (D p c)) (hbody : ∀ c, BodyObligation (D p c) defs₀ Variants.none () Set.univ)
    (hsplit : ∀ c : Dev nD, StableHlo.held (c : Thread nD τ) (Pipeline.ucRefs τ sig) (Vin c) ⊢ iprop((D p c).arrays ((D p c).arrAt · 0)
      ∗ Pipeline.unscopedRest (Ix := Unit) (Name := ℕ) (U := UR sig nD τ) (Lvl := ℕ) (cfgs p).spec c fun b => Vin c b))
    (hjoin : ∀ c : Dev nD, iprop((D p c).arrays ((D p c).arrAt · (cfgs p).N)
      ∗ Pipeline.unscopedRest (Ix := Unit) (Name := ℕ) (U := UR sig nD τ) (Lvl := ℕ) (cfgs p).spec c fun b => Vin c b)
      ⊢ StableHlo.held (c : Thread nD τ) (Pipeline.ucRefs τ sig) (Vout c)) :
    RegionSeg (fun p => (cfgs p).toPCfg) (fun p => (cfgs p).toPCfg_adm) D () defs₀ Variants.none (fun _ => ∅) (fun _ _ => 0) p where
  win := win
  block_pos := block_pos
  stage_whole := stage_whole
  K := PEmpty
  osem k := k.elim
  ho := Pipeline.OwnSemFacts.none _
  hbody c := (hbody c).loose
  hwaits := Pipeline.hwaits_of_owed_zero _ _ _ _ _ _ p fun c => (hD c).owed
  pre c := iprop(StableHlo.held (c : Thread nD τ) (Pipeline.ucRefs τ sig) (Vin c)
    ∗ (∃ r, prngReg c r) ∗ ∃ W, owes (c : Thread nD τ) (0 : CellTallies nD τ sig Unit) W)
  post c := iprop(StableHlo.held (c : Thread nD τ) (Pipeline.ucRefs τ sig) (Vout c)
    ∗ (∃ r, prngReg c r) ∗ ∃ W, owes (c : Thread nD τ) (0 : CellTallies nD τ sig Unit) W)
  X c := iprop(∃ r, prngReg c r)
  Y c := iprop(∃ r, prngReg c r)
  Z c := Pipeline.unscopedRest (cfgs p).spec c fun b => Vin c b
  hentry c := by
    rw [Pipeline.ownSems0_none, Pipeline.prefHeld, show (Finset.univ : Finset (Fin 0)) = ∅ from rfl, BI.bigSep_empty,
      Pipeline.Dat.owesAt, Pipeline.owesWithin, Pipeline.Dat.bound, (hD c).owed, (hD c).recorded]
    iintro ⟨⟨Hub, Hp, %W, HO⟩, -, -⟩
    ihave H := hsplit c $$ Hub
    icases H with ⟨Ha, Hrest⟩
    imodintro
    iframe
    isplitr; · iempintro
    iexists W; isplitr; · ipureintro; exact fun _ _ => Or.inl trivial
    iexact HO
  hin c := by
    rw [(hD c).Φ, Pipeline.ΦA]
    iintro ⟨Hp, -, Hr⟩
    iframe
  hout c := by
    rw [Pipeline.ownSems0_none, (hD c).Φ, Pipeline.ΦA]
    iintro ⟨Hr, Hp⟩
    iframe
    iempintro
  hexit c := by
    rw [Pipeline.Dat.owesAt, Pipeline.owesWithin, (hD c).owed]
    iintro ⟨Ha, ⟨%W, -, HO⟩, HY, Hrest⟩
    imodintro
    iframe
    isplitr [HO]
    · iapply hjoin c; iframe
    iexists W; iexact HO

/-- Whole arrays are split out of the unscoped buffers at `Vin` and put back with window `wo`'s array at `x`. -/
def regOf (p : P) (launch : Pipeline.LaunchFacts (nD := nD) (τ := τ) cfgs p) (Vin : Dev nD → Valuation τ sig Val)
    (wo : Fin (cfgs p).W) (hwo : ∀ w, w ≠ wo → ((cfgs p).win w).isOut = false)
    (x : (c : Dev nD) → Buf Val ((c : Thread nD τ).loc (Pipeline.arrRef (cfgs p).spec wo)))
    (hD : ∀ c, Whole (D p c) (Vin c)) (hbody : ∀ c, BodyObligation (D p c) defs₀ Variants.none () Set.univ)
    (hout : ∀ c, x c = (D p c).arrAt wo (cfgs p).N) :
    RegionSeg (fun p => (cfgs p).toPCfg) (fun p => (cfgs p).toPCfg_adm) D () defs₀ Variants.none (fun _ => ∅) (fun _ _ => 0) p :=
  regOfSplit p launch.win.to₀ launch.block_pos launch.stage_whole Vin
    (fun c => Function.update (Vin c) (Pipeline.arrRef (cfgs p).spec wo) (x c)) (fun c => (hD c).toPlain) hbody
    (fun c => by
      have h := Pipeline.arrays_of_unscopedBufs (p := p) (fun p => (cfgs p).toPCfg) (fun p => (cfgs p).toPCfg_adm) D launch.win launch.arr_whole c
        ((D p c).share_full (hD c).q) (fun b => Vin c b) (hD c).A
      rwa [Pipeline.unscopedBufs_held] at h)
    fun c => by
      have hoff b (h : b ≠ Pipeline.arrRef (cfgs p).spec wo) : Function.update (Vin c) (Pipeline.arrRef (cfgs p).spec wo) (x c) b = Vin c b :=
        Function.update_of_ne (StableHlo.devRef_ne_of_ne h) _ _
      have h := Pipeline.unscopedBufs_of_arrays (p := p) (fun p => (cfgs p).toPCfg) (fun p => (cfgs p).toPCfg_adm) (Ix := Unit) (Name := ℕ) (U := UR sig nD τ) (Lvl := ℕ)
        launch.win launch.arr_whole c D ((D p c).share_full (hD c).q)
        (fun b => Vin c b) (fun b => Function.update (Vin c) (Pipeline.arrRef (cfgs p).spec wo) (x c) b) ((D p c).arrAt · (cfgs p).N)
        (fun w => by
          by_cases h : w = wo
          · exact h ▸ (hout c).symm.trans (Function.update_self _ _ (Vin c)).symm
          · exact (((D p c).arrAt_in w (hwo w h) _).trans ((hD c).A w)).trans (hoff _ fun e => h (launch.win.arr_inj e)).symm)
        fun b hb => hoff b fun e => hb (e ▸ Finset.mem_image_of_mem _ (Finset.mem_univ wo))
      rwa [Pipeline.unscopedBufs_held] at h

end Cert.Reg

end
-- ==== Proof.KiSeg0.lean ====
import proofs.«403073_j42855183679829_3_alg».proof.Proof.KiData
import proofs.«403073_j42855183679829_3_alg».proof.Proof.SegGen

namespace Cert.KernelIdeal.Reg

open Cert.KernelIdeal Cert.KernelIdeal.Gen Cert.Reg Idealize.ShloMosaic Idealize.ShloMosaic.TcCoe
open Idealize.ShloMosaic.Pipeline (RegionSeg)

variable {F : FTy → Type} [FloatOps F] (m : (ℓ : Loc nD τ sig) → Buf (Elt F) ℓ) (outs : Outs (F := F))

noncomputable def reg0 (hok : OutsOk m outs) : RegionSeg (pcfgs (F := F)) adm (pdats m outs) () defs₀ 𝒱₀ L lv 0 :=
  regOf 0 launch0 (V1 m) (2 : Fin cfg0.W) (by decide) (outs 2 main_v18) (fun _ => {}) (body_obligation0 (T1 m) qF) hok.h0

end Cert.KernelIdeal.Reg
-- ==== Proof.KiSeg1.lean ====
import proofs.«403073_j42855183679829_3_alg».proof.Proof.KiData
import proofs.«403073_j42855183679829_3_alg».proof.Proof.SegGen

namespace Cert.KernelIdeal.Reg

open Cert.KernelIdeal Cert.KernelIdeal.Gen Cert.Reg Idealize.ShloMosaic Idealize.ShloMosaic.TcCoe
open Idealize.ShloMosaic.Pipeline (RegionSeg)

variable {F : FTy → Type} [FloatOps F] (m : (ℓ : Loc nD τ sig) → Buf (Elt F) ℓ) (outs : Outs (F := F))

noncomputable def reg1 (hok : OutsOk m outs) : RegionSeg (pcfgs (F := F)) adm (pdats m outs) () defs₀ 𝒱₀ L lv 1 :=
  regOf 1 launch1 (V3 m outs) (2 : Fin cfg1.W) (by decide) (outs 4 main_v21) (fun _ => {}) (body_obligation1 (T3 m outs) qF) hok.h1

end Cert.KernelIdeal.Reg
-- ==== Proof.KiSeg2.lean ====
import proofs.«403073_j42855183679829_3_alg».proof.Proof.KiData
import proofs.«403073_j42855183679829_3_alg».proof.Proof.SegGen

namespace Cert.KernelIdeal.Reg

open Cert.KernelIdeal Cert.KernelIdeal.Gen Cert.Reg Idealize.ShloMosaic Idealize.ShloMosaic.TcCoe
open Idealize.ShloMosaic.Pipeline (RegionSeg)

variable {F : FTy → Type} [FloatOps F] (m : (ℓ : Loc nD τ sig) → Buf (Elt F) ℓ) (outs : Outs (F := F))

noncomputable def reg2 (hok : OutsOk m outs) : RegionSeg (pcfgs (F := F)) adm (pdats m outs) () defs₀ 𝒱₀ L lv 2 :=
  regOf 2 launch2 (V5 m outs) (2 : Fin cfg2.W) (by decide) (outs 6 main_v24) (fun _ => {}) (body_obligation2 (T5 m outs) qF) hok.h2

end Cert.KernelIdeal.Reg
-- ==== Proof.KiSeg3.lean ====
import proofs.«403073_j42855183679829_3_alg».proof.Proof.KiData
import proofs.«403073_j42855183679829_3_alg».proof.Proof.SegGen

namespace Cert.KernelIdeal.Reg

open Cert.KernelIdeal Cert.KernelIdeal.Gen Cert.Reg Idealize.ShloMosaic Idealize.ShloMosaic.TcCoe
open Idealize.ShloMosaic.Pipeline (RegionSeg)

variable {F : FTy → Type} [FloatOps F] (m : (ℓ : Loc nD τ sig) → Buf (Elt F) ℓ) (outs : Outs (F := F))

noncomputable def reg3 (hok : OutsOk m outs) : RegionSeg (pcfgs (F := F)) adm (pdats m outs) () defs₀ 𝒱₀ L lv 3 :=
  regOf 3 launch3 (V7 m outs) (2 : Fin cfg3.W) (by decide) (outs 8 main_v27) (fun _ => {}) (body_obligation3 (T7 m outs) qF) hok.h3

end Cert.KernelIdeal.Reg
-- ==== Proof.KiSeg4.lean ====
import proofs.«403073_j42855183679829_3_alg».proof.Proof.KiData
import proofs.«403073_j42855183679829_3_alg».proof.Proof.SegGen

namespace Cert.KernelIdeal.Reg

open Cert.KernelIdeal Cert.KernelIdeal.Gen Cert.Reg Idealize.ShloMosaic Idealize.ShloMosaic.TcCoe
open Idealize.ShloMosaic.Pipeline (RegionSeg)

variable {F : FTy → Type} [FloatOps F] (m : (ℓ : Loc nD τ sig) → Buf (Elt F) ℓ) (outs : Outs (F := F))

noncomputable def reg4 (hok : OutsOk m outs) : RegionSeg (pcfgs (F := F)) adm (pdats m outs) () defs₀ 𝒱₀ L lv 4 :=
  regOf 4 launch4 (V9 m outs) (2 : Fin cfg4.W) (by decide) (outs 10 main_v30) (fun _ => {}) (body_obligation4 (T9 m outs) qF) hok.h4

end Cert.KernelIdeal.Reg
-- ==== Proof.KiSeg5.lean ====
import proofs.«403073_j42855183679829_3_alg».proof.Proof.KiData
import proofs.«403073_j42855183679829_3_alg».proof.Proof.SegGen

namespace Cert.KernelIdeal.Reg

open Cert.KernelIdeal Cert.KernelIdeal.Gen Cert.Reg Idealize.ShloMosaic Idealize.ShloMosaic.TcCoe
open Idealize.ShloMosaic.Pipeline (RegionSeg)

variable {F : FTy → Type} [FloatOps F] (m : (ℓ : Loc nD τ sig) → Buf (Elt F) ℓ) (outs : Outs (F := F))

noncomputable def reg5 (hok : OutsOk m outs) : RegionSeg (pcfgs (F := F)) adm (pdats m outs) () defs₀ 𝒱₀ L lv 5 :=
  regOf 5 launch5 (V11 m outs) (2 : Fin cfg5.W) (by decide) (outs 12 main_v33) (fun _ => {}) (body_obligation5 (T11 m outs) qF) hok.h5

end Cert.KernelIdeal.Reg
-- ==== Proof.KiSeg6.lean ====
import proofs.«403073_j42855183679829_3_alg».proof.Proof.KiData
import proofs.«403073_j42855183679829_3_alg».proof.Proof.SegGen

namespace Cert.KernelIdeal.Reg

open Cert.KernelIdeal Cert.KernelIdeal.Gen Cert.Reg Idealize.ShloMosaic Idealize.ShloMosaic.TcCoe
open Idealize.ShloMosaic.Pipeline (RegionSeg)

variable {F : FTy → Type} [FloatOps F] (m : (ℓ : Loc nD τ sig) → Buf (Elt F) ℓ) (outs : Outs (F := F))

noncomputable def reg6 (hok : OutsOk m outs) : RegionSeg (pcfgs (F := F)) adm (pdats m outs) () defs₀ 𝒱₀ L lv 6 :=
  regOf 6 launch6 (V13 m outs) (2 : Fin cfg6.W) (by decide) (outs 14 main_v36) (fun _ => {}) (body_obligation6 (T13 m outs) qF) hok.h6

end Cert.KernelIdeal.Reg
-- ==== Proof.KiFrame.lean ====
import proofs.«403073_j42855183679829_3_alg».proof.Proof.KiSeg0
import proofs.«403073_j42855183679829_3_alg».proof.Proof.KiSeg1
import proofs.«403073_j42855183679829_3_alg».proof.Proof.KiSeg2
import proofs.«403073_j42855183679829_3_alg».proof.Proof.KiSeg3
import proofs.«403073_j42855183679829_3_alg».proof.Proof.KiSeg4
import proofs.«403073_j42855183679829_3_alg».proof.Proof.KiSeg5
import proofs.«403073_j42855183679829_3_alg».proof.Proof.KiSeg6
import proofs.«403073_j42855183679829_3_alg».proof.Proof.KiRun

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

-- The run of @main over any consistent `outs`: host stretches and regions chained; region 7's segment is the caller's.
set_option backward.isDefEq.respectTransparency.types false in

theorem run_all (hok : OutsOk m outs)
    (R7 : RegionSeg (pcfgs (F := F)) adm (pdats m outs) () defs₀ 𝒱₀ L lv 7)
    (hpre7 : ∀ c : Dev nD, iprop(StableHlo.held (c : Thread nD τ) (Pipeline.ucRefs τ sig) (V14 m outs c) ∗ EE (F := F) 7 c) ⊢ R7.pre c)
    (hpost7 : ∀ c : Dev nD, R7.post c ⊢ iprop(StableHlo.held (c : Thread nD τ) (Pipeline.ucRefs τ sig) (V15 m outs c) ∗ EE (F := F) 8 c)) :
    θ_run defs (onTc (τ := τ) (main (F := F))) ⟨m, fun _ => 0, ρ⟩ (fun r => ∀ c : Dev nD,
      ∀ b ∈ Pipeline.ucRefs τ sig, r.2.mem ((c : Thread nD τ).1, b) = V16 m outs c b) :=
  run_cond m emb₁ () 𝒱₀ L lv (fun _ _ => rfl) ρ outs (pdats m outs)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := EE)
    (hE0 := by
      have hm : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (iprop(emp) : sProp 𝕄)))
          ⊢ (bigSep Finset.univ fun c : Dev nD => iprop((∃ r, prngReg c r) ∗ ∃ W, owes (c : Thread nD τ) (0 : CellTallies nD τ sig Unit) W) : sProp 𝕄) :=
        bigSep_mono fun c _ => show iprop(unscopedSems0 c ∗ owes (c : Thread nD τ) ((0 : Dev nD → CellTallies nD τ sig Unit) c) ∅
            ∗ Pipeline.launchCred (0 : Dev nD → CellTallies nD τ sig Unit) c ∗ prngReg c (ρ c) ∗ (iprop(emp) : sProp 𝕄))
          ⊢ (iprop((∃ r, prngReg c r) ∗ ∃ W, owes (c : Thread nD τ) (0 : CellTallies nD τ sig Unit) W) : sProp 𝕄) from by
          iintro ⟨-, HO, -, Hp, -⟩
          isplitl [Hp]; · iexists _; iexact Hp
          iexists ∅; iexact HO
      iintro ⟨H, -⟩
      imodintro
      iapply hm
      iexact H)
    (hE8 := fun c => by
      iintro ⟨-, HO⟩
      iexact HO)
    (reg0 m outs hok) (fun _ => .rfl) (fun _ => .rfl)
    (reg1 m outs hok) (fun _ => .rfl) (fun _ => .rfl)
    (reg2 m outs hok) (fun _ => .rfl) (fun _ => .rfl)
    (reg3 m outs hok) (fun _ => .rfl) (fun _ => .rfl)
    (reg4 m outs hok) (fun _ => .rfl) (fun _ => .rfl)
    (reg5 m outs hok) (fun _ => .rfl) (fun _ => .rfl)
    (reg6 m outs hok) (fun _ => .rfl) (fun _ => .rfl)
    R7 hpre7 hpost7

end Cert.KernelIdeal.Reg

end
-- ==== Proof.KiSeg7.lean ====
import proofs.«403073_j42855183679829_3_alg».proof.Proof.KiData
import proofs.«403073_j42855183679829_3_alg».proof.Proof.SegGen

noncomputable section

namespace Cert.KernelIdeal.Reg

open Cert.KernelIdeal Cert.KernelIdeal.Gen Cert.Reg
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ) (outs : Outs (F := F))

theorem img7 : Finset.univ.image (Pipeline.arrRef spec7) = {main_v36, main_v37} := by decide

theorem arrBufs7 (c : Dev nD) (V : (b : Ref sig .tc) → Buf (Elt F) ((c : Thread nD τ).loc b)) :
    (Pipeline.arrBufs (Ix := Unit) (Name := ℕ) (U := UR sig nD τ) (Lvl := ℕ) spec7 c V : sProp 𝕄)
      = iprop((((c : Thread nD τ).loc main_v36) ↦{fullShare} V main_v36) ∗ (((c : Thread nD τ).loc main_v37) ↦{fullShare} V main_v37)) := by
  unfold Pipeline.arrBufs
  rw [img7, bigSep_insert (by decide), bigSep_singleton]
  rfl

theorem arrays7 (c : Dev nD) (Fn : (w : Fin cfg7.W) → Buf (Elt F) ((cfg7.win w).arr.view.loc (c : Thread nD τ))) :
    (pdats m outs 7 c).arrays Fn
      = iprop((((c : Thread nD τ).loc main_v36) ↦{fullShare.left} Fn 0) ∗ (((c : Thread nD τ).loc main_v36) ↦{fullShare.right} Fn 1)
          ∗ (((c : Thread nD τ).loc main_v37) ↦{fullShare} Fn 2)) := by
  have h0 : ((cfgs 7).win 0).arr.view.set = Finset.univ := (arr_whole7 0).set_eq_univ
  have h1 : ((cfgs 7).win 1).arr.view.set = Finset.univ := (arr_whole7 1).set_eq_univ
  have h2 : ((cfgs 7).win 2).arr.view.set = Finset.univ := (arr_whole7 2).set_eq_univ
  unfold Dat.arrays
  rw [bigSep_W7, h0, h1, h2]
  rfl

/-- The array both input windows read is cut into the two halves of its full share. -/
theorem entry7 (c : Dev nD) :
    StableHlo.held (c : Thread nD τ) (Pipeline.ucRefs τ sig) (V14 m outs c)
      ⊢ iprop((pdats m outs 7 c).arrays ((pdats m outs 7 c).arrAt · 0)
          ∗ Pipeline.unscopedRest (Ix := Unit) (Name := ℕ) (U := UR sig nD τ) (Lvl := ℕ) spec7 c (T14 m outs c)) := by
  rw [← Pipeline.unscopedBufs_held, Pipeline.unscopedBufs_split₀ (p := 7) cfgs winFacts₀7.arr_unscoped c]
  refine sep_mono ?_ .rfl
  rw [show (cfgs 7).spec = spec7 from rfl, arrBufs7, arrays7]
  iintro ⟨H36, H37⟩
  ihave H := (pointsTo_share (PosShare.mem_left_op_right fullShare)).1 $$ H36
  icases H with ⟨Hl, Hr⟩
  isplitl [Hl]; · iexact Hl
  isplitl [Hr]; · iexact Hr
  iexact H37

theorem hF7_in0 (c : Dev nD) : (pdats m outs 7 c).arrAt 0 cfg7.N = V14 m outs c main_v36 :=
  ((dat7 (T14 m outs) q7 c).arrAt_in 0 rfl _).trans (A_eq7 (T14 m outs) q7 c 0)
theorem hF7_in1 (c : Dev nD) : (pdats m outs 7 c).arrAt 1 cfg7.N = V14 m outs c main_v36 :=
  ((dat7 (T14 m outs) q7 c).arrAt_in 1 rfl _).trans (A_eq7 (T14 m outs) q7 c 1)

theorem hF7_out (hok : OutsOk m outs) (c : Dev nD) : (pdats m outs 7 c).arrAt 2 cfg7.N = V15 m outs c main_v37 :=
  (hok.h7 c).symm.trans (Function.update_self _ _ (V14 m outs c)).symm

/-- The two halves, both still at the entry contents, join back into the full share. -/
theorem exit7 (hok : OutsOk m outs) (c : Dev nD) :
    iprop((pdats m outs 7 c).arrays ((pdats m outs 7 c).arrAt · cfg7.N)
        ∗ Pipeline.unscopedRest (Ix := Unit) (Name := ℕ) (U := UR sig nD τ) (Lvl := ℕ) spec7 c (T14 m outs c))
      ⊢ StableHlo.held (c : Thread nD τ) (Pipeline.ucRefs τ sig) (V15 m outs c) := by
  rw [← Pipeline.unscopedBufs_held, Pipeline.unscopedBufs_split₀ (p := 7) cfgs winFacts₀7.arr_unscoped c]
  refine sep_mono ?_ (Entails.of_eq ?_)
  · rw [show (cfgs 7).spec = spec7 from rfl, arrBufs7, arrays7, hF7_in0, hF7_in1, hF7_out m outs hok,
      V15_of m outs c main_v36 (by decide)]
    iintro ⟨Hl, Hr, H37⟩
    ihave H := (pointsTo_share (PosShare.mem_left_op_right fullShare)).2 $$ [Hl Hr]
    · iframe
    iframe
  · unfold Pipeline.unscopedRest
    exact bigSep_congr fun b hb => by
      rw [show T14 m outs c b = V15 m outs c b from (V15_of m outs c b fun h => (Finset.mem_sdiff.mp hb).2
        (List.mem_singleton.mp h ▸ Finset.mem_image.mpr ⟨2, Finset.mem_univ _, rfl⟩)).symm]

def reg7 (hok : OutsOk m outs) : RegionSeg (pcfgs (F := F)) adm (pdats m outs) () defs₀ 𝒱₀ L lv 7 :=
  regOfSplit 7 winFacts₀7 block_pos7 stage_whole7 (V14 m outs) (V15 m outs) (fun _ => {}) (body_obligation7 (T14 m outs) q7)
    (entry7 m outs) (exit7 m outs hok)

end Cert.KernelIdeal.Reg

end
-- ==== Proof.KiOuts.lean ====
import proofs.«403073_j42855183679829_3_alg».proof.Proof.KiData

set_option maxRecDepth 16384

noncomputable section

namespace Cert.KernelIdeal.Reg

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

def U1 (c : Dev nD) : Valuation τ sig (Elt F) := V1 m c

abbrev TU1 : (c : Dev nD) → (b : Ref sig .tc) → Buf (Elt F) ((c : Thread nD τ).loc b) := fun c b => U1 m c b

def res0 (c : Dev nD) : Buf (Elt F) ((c : Thread nD τ).loc main_v18) := (dat0 (TU1 m) qF c).arrAt 2 cfg0.N

def U2 (c : Dev nD) : Valuation τ sig (Elt F) := Function.update (U1 m c) main_v18 (res0 m c)

def U3 (c : Dev nD) : Valuation τ sig (Elt F) := StableHlo.after hostOps1 (U2 m c)

abbrev TU3 : (c : Dev nD) → (b : Ref sig .tc) → Buf (Elt F) ((c : Thread nD τ).loc b) := fun c b => U3 m c b

def res1 (c : Dev nD) : Buf (Elt F) ((c : Thread nD τ).loc main_v21) := (dat1 (TU3 m) qF c).arrAt 2 cfg1.N

def U4 (c : Dev nD) : Valuation τ sig (Elt F) := Function.update (U3 m c) main_v21 (res1 m c)

def U5 (c : Dev nD) : Valuation τ sig (Elt F) := StableHlo.after hostOps2 (U4 m c)

abbrev TU5 : (c : Dev nD) → (b : Ref sig .tc) → Buf (Elt F) ((c : Thread nD τ).loc b) := fun c b => U5 m c b

def res2 (c : Dev nD) : Buf (Elt F) ((c : Thread nD τ).loc main_v24) := (dat2 (TU5 m) qF c).arrAt 2 cfg2.N

def U6 (c : Dev nD) : Valuation τ sig (Elt F) := Function.update (U5 m c) main_v24 (res2 m c)

def U7 (c : Dev nD) : Valuation τ sig (Elt F) := StableHlo.after hostOps3 (U6 m c)

abbrev TU7 : (c : Dev nD) → (b : Ref sig .tc) → Buf (Elt F) ((c : Thread nD τ).loc b) := fun c b => U7 m c b

def res3 (c : Dev nD) : Buf (Elt F) ((c : Thread nD τ).loc main_v27) := (dat3 (TU7 m) qF c).arrAt 2 cfg3.N

def U8 (c : Dev nD) : Valuation τ sig (Elt F) := Function.update (U7 m c) main_v27 (res3 m c)

def U9 (c : Dev nD) : Valuation τ sig (Elt F) := StableHlo.after hostOps4 (U8 m c)

abbrev TU9 : (c : Dev nD) → (b : Ref sig .tc) → Buf (Elt F) ((c : Thread nD τ).loc b) := fun c b => U9 m c b

def res4 (c : Dev nD) : Buf (Elt F) ((c : Thread nD τ).loc main_v30) := (dat4 (TU9 m) qF c).arrAt 2 cfg4.N

def U10 (c : Dev nD) : Valuation τ sig (Elt F) := Function.update (U9 m c) main_v30 (res4 m c)

def U11 (c : Dev nD) : Valuation τ sig (Elt F) := StableHlo.after hostOps5 (U10 m c)

abbrev TU11 : (c : Dev nD) → (b : Ref sig .tc) → Buf (Elt F) ((c : Thread nD τ).loc b) := fun c b => U11 m c b

def res5 (c : Dev nD) : Buf (Elt F) ((c : Thread nD τ).loc main_v33) := (dat5 (TU11 m) qF c).arrAt 2 cfg5.N

def U12 (c : Dev nD) : Valuation τ sig (Elt F) := Function.update (U11 m c) main_v33 (res5 m c)

def U13 (c : Dev nD) : Valuation τ sig (Elt F) := StableHlo.after hostOps6 (U12 m c)

abbrev TU13 : (c : Dev nD) → (b : Ref sig .tc) → Buf (Elt F) ((c : Thread nD τ).loc b) := fun c b => U13 m c b

def res6 (c : Dev nD) : Buf (Elt F) ((c : Thread nD τ).loc main_v36) := (dat6 (TU13 m) qF c).arrAt 2 cfg6.N

def U14 (c : Dev nD) : Valuation τ sig (Elt F) := Function.update (U13 m c) main_v36 (res6 m c)

abbrev TU14 : (c : Dev nD) → (b : Ref sig .tc) → Buf (Elt F) ((c : Thread nD τ).loc b) := fun c b => U14 m c b

def res7 (c : Dev nD) : Buf (Elt F) ((c : Thread nD τ).loc main_v37) := (dat7 (TU14 m) q7 c).arrAt 2 cfg7.N

def U15 (c : Dev nD) : Valuation τ sig (Elt F) := Function.update (U14 m c) main_v37 (res7 m c)

def outsOf : Outs (F := F) := fun J r c =>
  match J with
  | 2 => U2 m c r | 4 => U4 m c r | 6 => U6 m c r | 8 => U8 m c r | 10 => U10 m c r | 12 => U12 m c r | 14 => U14 m c r | 15 => U15 m c r
  | _ => U1 m c r

/-- Overwriting a slot with what the overwritten function already holds there changes nothing. -/
theorem update_update_self {α : Type} [DecidableEq α] {β : α → Type} {f g : ∀ a, β a} (h : f = g) (a : α) (v : β a) :
    Function.update f a (Function.update g a v a) = Function.update g a v := by
  rw [h, Function.update_self]

theorem V1_eq (c : Dev nD) : V1 m c = U1 m c := rfl
theorem V2_eq (c : Dev nD) : V2 m (outsOf m) c = U2 m c := update_update_self (V1_eq m c) _ _
theorem V3_eq (c : Dev nD) : V3 m (outsOf m) c = U3 m c := congrArg (StableHlo.after hostOps1) (V2_eq m c)
theorem V4_eq (c : Dev nD) : V4 m (outsOf m) c = U4 m c := update_update_self (V3_eq m c) _ _
theorem V5_eq (c : Dev nD) : V5 m (outsOf m) c = U5 m c := congrArg (StableHlo.after hostOps2) (V4_eq m c)
theorem V6_eq (c : Dev nD) : V6 m (outsOf m) c = U6 m c := update_update_self (V5_eq m c) _ _
theorem V7_eq (c : Dev nD) : V7 m (outsOf m) c = U7 m c := congrArg (StableHlo.after hostOps3) (V6_eq m c)
theorem V8_eq (c : Dev nD) : V8 m (outsOf m) c = U8 m c := update_update_self (V7_eq m c) _ _
theorem V9_eq (c : Dev nD) : V9 m (outsOf m) c = U9 m c := congrArg (StableHlo.after hostOps4) (V8_eq m c)
theorem V10_eq (c : Dev nD) : V10 m (outsOf m) c = U10 m c := update_update_self (V9_eq m c) _ _
theorem V11_eq (c : Dev nD) : V11 m (outsOf m) c = U11 m c := congrArg (StableHlo.after hostOps5) (V10_eq m c)
theorem V12_eq (c : Dev nD) : V12 m (outsOf m) c = U12 m c := update_update_self (V11_eq m c) _ _
theorem V13_eq (c : Dev nD) : V13 m (outsOf m) c = U13 m c := congrArg (StableHlo.after hostOps6) (V12_eq m c)
theorem V14_eq (c : Dev nD) : V14 m (outsOf m) c = U14 m c := update_update_self (V13_eq m c) _ _
theorem V15_eq (c : Dev nD) : V15 m (outsOf m) c = U15 m c := update_update_self (V14_eq m c) _ _

/-- Each entry of the unknown is its region's result, the region entered at the fold so far. -/
theorem outsOf_ok : OutsOk m (outsOf m) where
  h0 c := by rw [show T1 m = TU1 m from funext fun c => funext fun b => congrFun (V1_eq m c) b]; show U2 m c main_v18 = _; unfold U2; rw [Function.update_self]; rfl
  h1 c := by rw [show T3 m (outsOf m) = TU3 m from funext fun c => funext fun b => congrFun (V3_eq m c) b]; show U4 m c main_v21 = _; unfold U4; rw [Function.update_self]; rfl
  h2 c := by rw [show T5 m (outsOf m) = TU5 m from funext fun c => funext fun b => congrFun (V5_eq m c) b]; show U6 m c main_v24 = _; unfold U6; rw [Function.update_self]; rfl
  h3 c := by rw [show T7 m (outsOf m) = TU7 m from funext fun c => funext fun b => congrFun (V7_eq m c) b]; show U8 m c main_v27 = _; unfold U8; rw [Function.update_self]; rfl
  h4 c := by rw [show T9 m (outsOf m) = TU9 m from funext fun c => funext fun b => congrFun (V9_eq m c) b]; show U10 m c main_v30 = _; unfold U10; rw [Function.update_self]; rfl
  h5 c := by rw [show T11 m (outsOf m) = TU11 m from funext fun c => funext fun b => congrFun (V11_eq m c) b]; show U12 m c main_v33 = _; unfold U12; rw [Function.update_self]; rfl
  h6 c := by rw [show T13 m (outsOf m) = TU13 m from funext fun c => funext fun b => congrFun (V13_eq m c) b]; show U14 m c main_v36 = _; unfold U14; rw [Function.update_self]; rfl
  h7 c := by rw [show T14 m (outsOf m) = TU14 m from funext fun c => funext fun b => congrFun (V14_eq m c) b]; show U15 m c main_v37 = _; unfold U15; rw [Function.update_self]; rfl

end Cert.KernelIdeal.Reg

end
-- ==== Proof.KiFinal.lean ====
import proofs.«403073_j42855183679829_3_alg».proof.Proof.KiFrame
import proofs.«403073_j42855183679829_3_alg».proof.Proof.KiSeg7
import proofs.«403073_j42855183679829_3_alg».proof.Proof.KiOuts

set_option maxRecDepth 16384

noncomputable section

namespace Cert.KernelIdeal.Reg

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem run_final : θ_run defs (onTc (τ := τ) (main (F := F))) ⟨m, fun _ => 0, ρ⟩ (fun r => ∀ c : Dev nD,
      ∀ b ∈ Pipeline.ucRefs τ sig, r.2.mem ((c : Thread nD τ).1, b) = V16 m (outsOf m) c b) :=
  run_all m ρ (outsOf m) (outsOf_ok m) (reg7 m (outsOf m) (outsOf_ok m)) (fun _ => .rfl) (fun _ => .rfl)

/-- Every unscoped buffer ends at the last valuation; no item writes an argument, so the arguments end as launched. -/
theorem run_value : θ_run defs (onTc (τ := τ) (main (F := F))) ⟨m, fun _ => 0, ρ⟩ (fun r => ∀ c : Dev nD,
      r.2.mem ((c.tc : Thread nD τ).loc main_v38) = V16 m (outsOf m) c main_v38
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v38 (by decide)),
      (h c _ (mem_uc main_arg0 (by decide))).trans (V16_main_arg0 m (outsOf m) c),
      (h c _ (mem_uc main_arg1 (by decide))).trans (V16_main_arg1 m (outsOf m) c),
      (h c _ (mem_uc main_arg2 (by decide))).trans (V16_main_arg2 m (outsOf m) c),
      (h c _ (mem_uc main_arg3 (by decide))).trans (V16_main_arg3 m (outsOf m) c),
      (h c _ (mem_uc main_arg4 (by decide))).trans (V16_main_arg4 m (outsOf m) c),
      (h c _ (mem_uc main_arg5 (by decide))).trans (V16_main_arg5 m (outsOf m) c),
      (h c _ (mem_uc main_arg6 (by decide))).trans (V16_main_arg6 m (outsOf m) c),
      (h c _ (mem_uc main_arg7 (by decide))).trans (V16_main_arg7 m (outsOf m) c),
      (h c _ (mem_uc main_arg8 (by decide))).trans (V16_main_arg8 m (outsOf m) c),
      (h c _ (mem_uc main_arg9 (by decide))).trans (V16_main_arg9 m (outsOf m) c),
      (h c _ (mem_uc main_arg10 (by decide))).trans (V16_main_arg10 m (outsOf m) c)⟩)
    (run_final m ρ)

end Cert.KernelIdeal.Reg

end
-- ==== Proof.KRegion0.lean ====
import proofs.«403073_j42855183679829_3_alg».proof.Proof.Gen.Kernel.Launch
import proofs.«403073_j42855183679829_3_alg».proof.Proof.Gen.Kernel.Skeleton
import proofs.«403073_j42855183679829_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rA0 : Rect S400x10000 := Rect.unit (s := S400x10000) ![0, 0] S400x10000.size inb_S400x10000_S400x10000_0_0
abbrev rB0 : Rect S10000x32 := Rect.unit (s := S10000x32) ![0, 0] S10000x32.size inb_S10000x32_S10000x32_0_0
abbrev rO0 : Rect S400x32 := Rect.unit (s := S400x32) ![0, 0] S400x32.size inb_S400x32_S400x32_0_0

/-- The output block after the body: its one store, of the payload of the two input blocks, over the whole block. -/
def out0_2 (x0 : Vec F S400x10000 .bf16) (x1 : Vec F S10000x32 .bf16) : Vec F S400x32 .bf16 :=
  View.canon [⟨rO0, k0_pay1 (View.ld x0 rA0) (View.ld x1 rB0)⟩]

set_option maxHeartbeats 1000000 in
theorem sound_kernel0 (c : Dev nD) (E : Set ℕ) (i : grid0.Coords) (arg1 : Memref sig .tc .vmem S400x10000 .bf16) (harg1 : arg1.IsWhole) (arg2 : Memref sig .tc .vmem S10000x32 .bf16) (harg2 : arg2.IsWhole) (arg3 : Memref sig .tc .vmem S400x32 .bf16) (harg3 : arg3.IsWhole)
    (x0 : Vec F S400x10000 .bf16) (x1 : Vec F S10000x32 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__gcn_layer_kernel i arg1 harg1 arg2 harg2 arg3 harg3) K := by
  simp only [cc0__gcn_layer_kernel_eq_skeleton]; unfold cc0__gcn_layer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨rO0, _⟩] S400x32.size (by rfl))

/-- The same triple with a frame `P ∗ Q` carried through, the inputs handed over at contents known up to `h0`, `h1`. -/
theorem layer_body (c : Dev nD) (i : grid0.Coords) (arg1 : Memref sig .tc .vmem S400x10000 .bf16) (harg1 : arg1.IsWhole) (arg2 : Memref sig .tc .vmem S10000x32 .bf16) (harg2 : arg2.IsWhole) (arg3 : Memref sig .tc .vmem S400x32 .bf16) (harg3 : arg3.IsWhole)
    (x0 : Vec F S400x10000 .bf16) (x1 : Vec F S10000x32 .bf16) {D0 D1 D2 : Type} (B0 : D0 → Vec F S400x10000 .bf16) (B1 : D1 → Vec F S10000x32 .bf16) (B2 : D2 → Vec F S400x32 .bf16)
    (h0 : ∀ d, B0 d = x0) (h1 : ∀ d, B1 d = x1) (P Q : sProp 𝕄) :
    iprop(P ∗ Q ∗ (∃ d, owns (c : Thread nD τ) arg1 fullShare (B0 d)) ∗ (∃ d, owns (c : Thread nD τ) arg2 fullShare (B1 d)) ∗ (∃ d, owns (c : Thread nD τ) arg3 fullShare (B2 d)))
      ⊢ wp frame (wpE (defs₀ (F := F)) Variants.none c none) Set.univ (cc0__gcn_layer_kernel i arg1 harg1 arg2 harg2 arg3 harg3)
        (fun _ => iprop(P ∗ Q ∗ owns (c : Thread nD τ) arg1 fullShare x0 ∗ owns (c : Thread nD τ) arg2 fullShare x1 ∗ owns (c : Thread nD τ) arg3 fullShare (out0_2 x0 x1))) := by
  simp only [h0, h1]
  iintro ⟨HP, HQ, ⟨%d0, H0⟩, ⟨%d1, H1⟩, ⟨%d2, H2⟩⟩
  iapply (sound_kernel0 c Set.univ i arg1 harg1 arg2 harg2 arg3 harg3 x0 x1 _)
  isplitl [H0]; · iexact H0
  isplitl [H1]; · iexact H1
  isplitl [H2]; · iexists _; iexact H2
  iintro ⟨H0, H1, H2⟩
  isplitl [HP]; · iexact HP
  isplitl [HQ]; · iexact HQ
  isplitl [H0]; · iexact H0
  isplitl [H1]; · iexact H1
  iexact H2

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q := q
  owed _ := 0

variable (q : Fin cfg0.W → PosShare TreeShare)

theorem A_eq0 (c : Dev nD) (w : Fin cfg0.W) : (dat0 V q c).A w = V c (Pipeline.arrRef spec0 w) := rfl
theorem after0_2 (c : Dev nD) (t : Fin cfg0.N) : (dat0 V q c).after 2 t = out0_2 (iblk0 V c 0 t) (iblk0 V c 1 t) := by dsimp only [dat0]

/-- An input window's buffer holds its block at every point: fetched there, or the block index has not moved. -/
theorem before0_0 (c : Dev nD) (t : Fin cfg0.N) (d) : (dat0 V q c).before 0 t d = iblk0 V c 0 t :=
  (dat0 V q c).before_in_eq_fetched 0 rfl (fun _ => rfl) (fun _ _ _ => rfl) (fun _ => rfl) t d
theorem before0_1 (c : Dev nD) (t : Fin cfg0.N) (d) : (dat0 V q c).before 1 t d = iblk0 V c 1 t :=
  (dat0 V q c).before_in_eq_fetched 1 rfl (fun _ => rfl) (fun _ _ _ => rfl) (fun _ => rfl) t d

theorem body_obligation0 (c : Dev nD) : BodyObligation (dat0 (F := F) V q c) (defs₀ (F := F)) Variants.none () Set.univ := fun t => by
  rw [bigSep_W0, bigSep_W0, after0_2]
  exact layer_body c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) _ _ _ _ _ (before0_0 V q c t) (before0_1 V q c t) _ _

end Cert.Kernel.Reg

end
-- ==== Proof.KRegion1.lean ====
import proofs.«403073_j42855183679829_3_alg».proof.Proof.KRegion0

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out0_2 (iblk1 V c 0 t) (iblk1 V c 1 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := rfl
theorem after1_2 (c : Dev nD) (t : Fin cfg1.N) : (dat1 V q c).after 2 t = out0_2 (iblk1 V c 0 t) (iblk1 V c 1 t) := rfl

/-- An input window's buffer holds its block at every point: fetched there, or the block index has not moved. -/
theorem before1_0 (c : Dev nD) (t : Fin cfg1.N) (d) : (dat1 V q c).before 0 t d = iblk1 V c 0 t :=
  (dat1 V q c).before_in_eq_fetched 0 rfl (fun _ => rfl) (fun _ _ _ => rfl) (fun _ => rfl) t d
theorem before1_1 (c : Dev nD) (t : Fin cfg1.N) (d) : (dat1 V q c).before 1 t d = iblk1 V c 1 t :=
  (dat1 V q c).before_in_eq_fetched 1 rfl (fun _ => rfl) (fun _ _ _ => rfl) (fun _ => rfl) t d

theorem body_obligation1 (c : Dev nD) : BodyObligation (dat1 (F := F) V q c) (defs₀ (F := F)) Variants.none () Set.univ := fun t => by
  rw [bigSep_W1, bigSep_W1]
  exact layer_body c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) _ _ _ _ _ (before1_0 V q c t) (before1_1 V q c t) _ _

end Cert.Kernel.Reg

end
-- ==== Proof.KRegion2.lean ====
import proofs.«403073_j42855183679829_3_alg».proof.Proof.KRegion0

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out0_2 (iblk2 V c 0 t) (iblk2 V c 1 t)
  Φ _ := Pipeline.ΦA spec2 c
  q := q
  owed _ := 0

variable (q : Fin cfg2.W → PosShare TreeShare)

theorem A_eq2 (c : Dev nD) (w : Fin cfg2.W) : (dat2 V q c).A w = V c (Pipeline.arrRef spec2 w) := rfl
theorem after2_2 (c : Dev nD) (t : Fin cfg2.N) : (dat2 V q c).after 2 t = out0_2 (iblk2 V c 0 t) (iblk2 V c 1 t) := rfl

/-- An input window's buffer holds its block at every point: fetched there, or the block index has not moved. -/
theorem before2_0 (c : Dev nD) (t : Fin cfg2.N) (d) : (dat2 V q c).before 0 t d = iblk2 V c 0 t :=
  (dat2 V q c).before_in_eq_fetched 0 rfl (fun _ => rfl) (fun _ _ _ => rfl) (fun _ => rfl) t d
theorem before2_1 (c : Dev nD) (t : Fin cfg2.N) (d) : (dat2 V q c).before 1 t d = iblk2 V c 1 t :=
  (dat2 V q c).before_in_eq_fetched 1 rfl (fun _ => rfl) (fun _ _ _ => rfl) (fun _ => rfl) t d

theorem body_obligation2 (c : Dev nD) : BodyObligation (dat2 (F := F) V q c) (defs₀ (F := F)) Variants.none () Set.univ := fun t => by
  rw [bigSep_W2, bigSep_W2]
  exact layer_body c (grid2.coords t) (st2_0 t) (hstage2_0 ((cfg2.slots t 0).cast nbuf2_0)) (st2_1 t) (hstage2_1 ((cfg2.slots t 1).cast nbuf2_1))
    (st2_2 t) (hstage2_2 ((cfg2.slots t 2).cast nbuf2_2)) _ _ _ _ _ (before2_0 V q c t) (before2_1 V q c t) _ _

end Cert.Kernel.Reg

end
-- ==== Proof.KRegion3.lean ====
import proofs.«403073_j42855183679829_3_alg».proof.Proof.KRegion0

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (q : Fin cfg3.W → PosShare TreeShare) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out0_2 (iblk3 V c 0 t) (iblk3 V c 1 t)
  Φ _ := Pipeline.ΦA spec3 c
  q := q
  owed _ := 0

variable (q : Fin cfg3.W → PosShare TreeShare)

theorem A_eq3 (c : Dev nD) (w : Fin cfg3.W) : (dat3 V q c).A w = V c (Pipeline.arrRef spec3 w) := rfl
theorem after3_2 (c : Dev nD) (t : Fin cfg3.N) : (dat3 V q c).after 2 t = out0_2 (iblk3 V c 0 t) (iblk3 V c 1 t) := rfl

/-- An input window's buffer holds its block at every point: fetched there, or the block index has not moved. -/
theorem before3_0 (c : Dev nD) (t : Fin cfg3.N) (d) : (dat3 V q c).before 0 t d = iblk3 V c 0 t :=
  (dat3 V q c).before_in_eq_fetched 0 rfl (fun _ => rfl) (fun _ _ _ => rfl) (fun _ => rfl) t d
theorem before3_1 (c : Dev nD) (t : Fin cfg3.N) (d) : (dat3 V q c).before 1 t d = iblk3 V c 1 t :=
  (dat3 V q c).before_in_eq_fetched 1 rfl (fun _ => rfl) (fun _ _ _ => rfl) (fun _ => rfl) t d

theorem body_obligation3 (c : Dev nD) : BodyObligation (dat3 (F := F) V q c) (defs₀ (F := F)) Variants.none () Set.univ := fun t => by
  rw [bigSep_W3, bigSep_W3]
  exact layer_body c (grid3.coords t) (st3_0 t) (hstage3_0 ((cfg3.slots t 0).cast nbuf3_0)) (st3_1 t) (hstage3_1 ((cfg3.slots t 1).cast nbuf3_1))
    (st3_2 t) (hstage3_2 ((cfg3.slots t 2).cast nbuf3_2)) _ _ _ _ _ (before3_0 V q c t) (before3_1 V q c t) _ _

end Cert.Kernel.Reg

end
-- ==== Proof.KRegion4.lean ====
import proofs.«403073_j42855183679829_3_alg».proof.Proof.KRegion0

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (q : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out0_2 (iblk4 V c 0 t) (iblk4 V c 1 t)
  Φ _ := Pipeline.ΦA spec4 c
  q := q
  owed _ := 0

variable (q : Fin cfg4.W → PosShare TreeShare)

theorem A_eq4 (c : Dev nD) (w : Fin cfg4.W) : (dat4 V q c).A w = V c (Pipeline.arrRef spec4 w) := rfl
theorem after4_2 (c : Dev nD) (t : Fin cfg4.N) : (dat4 V q c).after 2 t = out0_2 (iblk4 V c 0 t) (iblk4 V c 1 t) := rfl

/-- An input window's buffer holds its block at every point: fetched there, or the block index has not moved. -/
theorem before4_0 (c : Dev nD) (t : Fin cfg4.N) (d) : (dat4 V q c).before 0 t d = iblk4 V c 0 t :=
  (dat4 V q c).before_in_eq_fetched 0 rfl (fun _ => rfl) (fun _ _ _ => rfl) (fun _ => rfl) t d
theorem before4_1 (c : Dev nD) (t : Fin cfg4.N) (d) : (dat4 V q c).before 1 t d = iblk4 V c 1 t :=
  (dat4 V q c).before_in_eq_fetched 1 rfl (fun _ => rfl) (fun _ _ _ => rfl) (fun _ => rfl) t d

theorem body_obligation4 (c : Dev nD) : BodyObligation (dat4 (F := F) V q c) (defs₀ (F := F)) Variants.none () Set.univ := fun t => by
  rw [bigSep_W4, bigSep_W4]
  exact layer_body c (grid4.coords t) (st4_0 t) (hstage4_0 ((cfg4.slots t 0).cast nbuf4_0)) (st4_1 t) (hstage4_1 ((cfg4.slots t 1).cast nbuf4_1))
    (st4_2 t) (hstage4_2 ((cfg4.slots t 2).cast nbuf4_2)) _ _ _ _ _ (before4_0 V q c t) (before4_1 V q c t) _ _

end Cert.Kernel.Reg

end
-- ==== Proof.KRegion5.lean ====
import proofs.«403073_j42855183679829_3_alg».proof.Proof.KRegion0

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (q : Fin cfg5.W → PosShare TreeShare) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out0_2 (iblk5 V c 0 t) (iblk5 V c 1 t)
  Φ _ := Pipeline.ΦA spec5 c
  q := q
  owed _ := 0

variable (q : Fin cfg5.W → PosShare TreeShare)

theorem A_eq5 (c : Dev nD) (w : Fin cfg5.W) : (dat5 V q c).A w = V c (Pipeline.arrRef spec5 w) := rfl
theorem after5_2 (c : Dev nD) (t : Fin cfg5.N) : (dat5 V q c).after 2 t = out0_2 (iblk5 V c 0 t) (iblk5 V c 1 t) := rfl

/-- An input window's buffer holds its block at every point: fetched there, or the block index has not moved. -/
theorem before5_0 (c : Dev nD) (t : Fin cfg5.N) (d) : (dat5 V q c).before 0 t d = iblk5 V c 0 t :=
  (dat5 V q c).before_in_eq_fetched 0 rfl (fun _ => rfl) (fun _ _ _ => rfl) (fun _ => rfl) t d
theorem before5_1 (c : Dev nD) (t : Fin cfg5.N) (d) : (dat5 V q c).before 1 t d = iblk5 V c 1 t :=
  (dat5 V q c).before_in_eq_fetched 1 rfl (fun _ => rfl) (fun _ _ _ => rfl) (fun _ => rfl) t d

theorem body_obligation5 (c : Dev nD) : BodyObligation (dat5 (F := F) V q c) (defs₀ (F := F)) Variants.none () Set.univ := fun t => by
  rw [bigSep_W5, bigSep_W5]
  exact layer_body c (grid5.coords t) (st5_0 t) (hstage5_0 ((cfg5.slots t 0).cast nbuf5_0)) (st5_1 t) (hstage5_1 ((cfg5.slots t 1).cast nbuf5_1))
    (st5_2 t) (hstage5_2 ((cfg5.slots t 2).cast nbuf5_2)) _ _ _ _ _ (before5_0 V q c t) (before5_1 V q c t) _ _

end Cert.Kernel.Reg

end
-- ==== Proof.KRegion6.lean ====
import proofs.«403073_j42855183679829_3_alg».proof.Proof.Gen.Kernel.Launch
import proofs.«403073_j42855183679829_3_alg».proof.Proof.Gen.Kernel.Skeleton
import proofs.«403073_j42855183679829_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rA6 : Rect S400x10000 := Rect.unit (s := S400x10000) ![0, 0] S400x10000.size inb_S400x10000_S400x10000_0_0
abbrev rB6 : Rect S10000x16 := Rect.unit (s := S10000x16) ![0, 0] S10000x16.size inb_S10000x16_S10000x16_0_0
abbrev rO6 : Rect S400x16 := Rect.unit (s := S400x16) ![0, 0] S400x16.size inb_S400x16_S400x16_0_0

/-- The output block after the body: its one store, of the payload of the two input blocks, over the whole block. -/
def out6_2 (x0 : Vec F S400x10000 .bf16) (x1 : Vec F S10000x16 .bf16) : Vec F S400x16 .bf16 :=
  View.canon [⟨rO6, k6_pay1 (View.ld x0 rA6) (View.ld x1 rB6)⟩]

set_option maxHeartbeats 1000000 in
theorem sound_kernel6 (c : Dev nD) (E : Set ℕ) (i : grid6.Coords) (arg1 : Memref sig .tc .vmem S400x10000 .bf16) (harg1 : arg1.IsWhole) (arg2 : Memref sig .tc .vmem S10000x16 .bf16) (harg2 : arg2.IsWhole) (arg3 : Memref sig .tc .vmem S400x16 .bf16) (harg3 : arg3.IsWhole)
    (x0 : Vec F S400x10000 .bf16) (x1 : Vec F S10000x16 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__gcn_layer_kernel i arg1 harg1 arg2 harg2 arg3 harg3) K := by
  simp only [cc6__gcn_layer_kernel_eq_skeleton]; unfold cc6__gcn_layer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨rO6, _⟩] S400x16.size (by rfl))

/-- The same triple with a frame `P ∗ Q` carried through, the inputs handed over at contents known up to `h0`, `h1`. -/
theorem layer_body6 (c : Dev nD) (i : grid6.Coords) (arg1 : Memref sig .tc .vmem S400x10000 .bf16) (harg1 : arg1.IsWhole) (arg2 : Memref sig .tc .vmem S10000x16 .bf16) (harg2 : arg2.IsWhole) (arg3 : Memref sig .tc .vmem S400x16 .bf16) (harg3 : arg3.IsWhole)
    (x0 : Vec F S400x10000 .bf16) (x1 : Vec F S10000x16 .bf16) {D0 D1 D2 : Type} (B0 : D0 → Vec F S400x10000 .bf16) (B1 : D1 → Vec F S10000x16 .bf16) (B2 : D2 → Vec F S400x16 .bf16)
    (h0 : ∀ d, B0 d = x0) (h1 : ∀ d, B1 d = x1) (P Q : sProp 𝕄) :
    iprop(P ∗ Q ∗ (∃ d, owns (c : Thread nD τ) arg1 fullShare (B0 d)) ∗ (∃ d, owns (c : Thread nD τ) arg2 fullShare (B1 d)) ∗ (∃ d, owns (c : Thread nD τ) arg3 fullShare (B2 d)))
      ⊢ wp frame (wpE (defs₀ (F := F)) Variants.none c none) Set.univ (cc6__gcn_layer_kernel i arg1 harg1 arg2 harg2 arg3 harg3)
        (fun _ => iprop(P ∗ Q ∗ owns (c : Thread nD τ) arg1 fullShare x0 ∗ owns (c : Thread nD τ) arg2 fullShare x1 ∗ owns (c : Thread nD τ) arg3 fullShare (out6_2 x0 x1))) := by
  simp only [h0, h1]
  iintro ⟨HP, HQ, ⟨%d0, H0⟩, ⟨%d1, H1⟩, ⟨%d2, H2⟩⟩
  iapply (sound_kernel6 c Set.univ i arg1 harg1 arg2 harg2 arg3 harg3 x0 x1 _)
  isplitl [H0]; · iexact H0
  isplitl [H1]; · iexact H1
  isplitl [H2]; · iexists _; iexact H2
  iintro ⟨H0, H1, H2⟩
  isplitl [HP]; · iexact HP
  isplitl [HQ]; · iexact HQ
  isplitl [H0]; · iexact H0
  isplitl [H1]; · iexact H1
  iexact H2

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (q : Fin cfg6.W → PosShare TreeShare) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q := q
  owed _ := 0

variable (q : Fin cfg6.W → PosShare TreeShare)

theorem A_eq6 (c : Dev nD) (w : Fin cfg6.W) : (dat6 V q c).A w = V c (Pipeline.arrRef spec6 w) := rfl
theorem after6_2 (c : Dev nD) (t : Fin cfg6.N) : (dat6 V q c).after 2 t = out6_2 (iblk6 V c 0 t) (iblk6 V c 1 t) := by dsimp only [dat6]

/-- An input window's buffer holds its block at every point: fetched there, or the block index has not moved. -/
theorem before6_0 (c : Dev nD) (t : Fin cfg6.N) (d) : (dat6 V q c).before 0 t d = iblk6 V c 0 t :=
  (dat6 V q c).before_in_eq_fetched 0 rfl (fun _ => rfl) (fun _ _ _ => rfl) (fun _ => rfl) t d
theorem before6_1 (c : Dev nD) (t : Fin cfg6.N) (d) : (dat6 V q c).before 1 t d = iblk6 V c 1 t :=
  (dat6 V q c).before_in_eq_fetched 1 rfl (fun _ => rfl) (fun _ _ _ => rfl) (fun _ => rfl) t d

theorem body_obligation6 (c : Dev nD) : BodyObligation (dat6 (F := F) V q c) (defs₀ (F := F)) Variants.none () Set.univ := fun t => by
  rw [bigSep_W6, bigSep_W6, after6_2]
  exact layer_body6 c (grid6.coords t) (st6_0 t) (hstage6_0 ((cfg6.slots t 0).cast nbuf6_0)) (st6_1 t) (hstage6_1 ((cfg6.slots t 1).cast nbuf6_1))
    (st6_2 t) (hstage6_2 ((cfg6.slots t 2).cast nbuf6_2)) _ _ _ _ _ (before6_0 V q c t) (before6_1 V q c t) _ _

end Cert.Kernel.Reg

end
-- ==== Proof.KRegion7.lean ====
import proofs.«403073_j42855183679829_3_alg».proof.Proof.Gen.Kernel.Launch
import proofs.«403073_j42855183679829_3_alg».proof.Proof.Gen.Kernel.Skeleton
import proofs.«403073_j42855183679829_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rA7 : Rect S400x16 := Rect.unit (s := S400x16) ![0, 0] S400x16.size inb_S400x16_S400x16_0_0
abbrev rB7 : Rect S10000x16 := Rect.unit (s := S10000x16) ![0, 0] S10000x16.size inb_S10000x16_S10000x16_0_0
abbrev rO7 : Rect S400x10000 := Rect.unit (s := S400x10000) ![0, 0] S400x10000.size inb_S400x10000_S400x10000_0_0

/-- The output block after the body: its one store, of the payload of the two input blocks, over the whole block. -/
def out7_2 (x0 : Vec F S400x16 .bf16) (x1 : Vec F S10000x16 .bf16) : Vec F S400x10000 .f32 :=
  View.canon [⟨rO7, k7_pay1 (View.ld x0 rA7) (View.ld x1 rB7)⟩]

set_option maxHeartbeats 1000000 in
theorem sound_kernel7 (c : Dev nD) (E : Set ℕ) (i : grid7.Coords) (arg1 : Memref sig .tc .vmem S400x16 .bf16) (harg1 : arg1.IsWhole) (arg2 : Memref sig .tc .vmem S10000x16 .bf16) (harg2 : arg2.IsWhole) (arg3 : Memref sig .tc .vmem S400x10000 .f32) (harg3 : arg3.IsWhole)
    (x0 : Vec F S400x16 .bf16) (x1 : Vec F S10000x16 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__zz_kernel i arg1 harg1 arg2 harg2 arg3 harg3) K := by
  simp only [cc7__zz_kernel_eq_skeleton]; unfold cc7__zz_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨rO7, _⟩] S400x10000.size (by rfl))

/-- The same triple with a frame `P ∗ Q` carried through, the inputs handed over at contents known up to `h0`, `h1`. -/
theorem layer_body7 (c : Dev nD) (i : grid7.Coords) (arg1 : Memref sig .tc .vmem S400x16 .bf16) (harg1 : arg1.IsWhole) (arg2 : Memref sig .tc .vmem S10000x16 .bf16) (harg2 : arg2.IsWhole) (arg3 : Memref sig .tc .vmem S400x10000 .f32) (harg3 : arg3.IsWhole)
    (x0 : Vec F S400x16 .bf16) (x1 : Vec F S10000x16 .bf16) {D0 D1 D2 : Type} (B0 : D0 → Vec F S400x16 .bf16) (B1 : D1 → Vec F S10000x16 .bf16) (B2 : D2 → Vec F S400x10000 .f32)
    (h0 : ∀ d, B0 d = x0) (h1 : ∀ d, B1 d = x1) (P Q : sProp 𝕄) :
    iprop(P ∗ Q ∗ (∃ d, owns (c : Thread nD τ) arg1 fullShare (B0 d)) ∗ (∃ d, owns (c : Thread nD τ) arg2 fullShare (B1 d)) ∗ (∃ d, owns (c : Thread nD τ) arg3 fullShare (B2 d)))
      ⊢ wp frame (wpE (defs₀ (F := F)) Variants.none c none) Set.univ (cc7__zz_kernel i arg1 harg1 arg2 harg2 arg3 harg3)
        (fun _ => iprop(P ∗ Q ∗ owns (c : Thread nD τ) arg1 fullShare x0 ∗ owns (c : Thread nD τ) arg2 fullShare x1 ∗ owns (c : Thread nD τ) arg3 fullShare (out7_2 x0 x1))) := by
  simp only [h0, h1]
  iintro ⟨HP, HQ, ⟨%d0, H0⟩, ⟨%d1, H1⟩, ⟨%d2, H2⟩⟩
  iapply (sound_kernel7 c Set.univ i arg1 harg1 arg2 harg2 arg3 harg3 x0 x1 _)
  isplitl [H0]; · iexact H0
  isplitl [H1]; · iexact H1
  isplitl [H2]; · iexists _; iexact H2
  iintro ⟨H0, H1, H2⟩
  isplitl [HP]; · iexact HP
  isplitl [HQ]; · iexact HQ
  isplitl [H0]; · iexact H0
  isplitl [H1]; · iexact H1
  iexact H2

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat7 (q : Fin cfg7.W → PosShare TreeShare) (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q := q
  owed _ := 0

variable (q : Fin cfg7.W → PosShare TreeShare)

theorem A_eq7 (c : Dev nD) (w : Fin cfg7.W) : (dat7 V q c).A w = V c (Pipeline.arrRef spec7 w) := rfl
theorem after7_2 (c : Dev nD) (t : Fin cfg7.N) : (dat7 V q c).after 2 t = out7_2 (iblk7 V c 0 t) (iblk7 V c 1 t) := by dsimp only [dat7]

/-- An input window's buffer holds its block at every point: fetched there, or the block index has not moved. -/
theorem before7_0 (c : Dev nD) (t : Fin cfg7.N) (d) : (dat7 V q c).before 0 t d = iblk7 V c 0 t :=
  (dat7 V q c).before_in_eq_fetched 0 rfl (fun _ => rfl) (fun _ _ _ => rfl) (fun _ => rfl) t d
theorem before7_1 (c : Dev nD) (t : Fin cfg7.N) (d) : (dat7 V q c).before 1 t d = iblk7 V c 1 t :=
  (dat7 V q c).before_in_eq_fetched 1 rfl (fun _ => rfl) (fun _ _ _ => rfl) (fun _ => rfl) t d

theorem body_obligation7 (c : Dev nD) : BodyObligation (dat7 (F := F) V q c) (defs₀ (F := F)) Variants.none () Set.univ := fun t => by
  rw [bigSep_W7, bigSep_W7, after7_2]
  exact layer_body7 c (grid7.coords t) (st7_0 t) (hstage7_0 ((cfg7.slots t 0).cast nbuf7_0)) (st7_1 t) (hstage7_1 ((cfg7.slots t 1).cast nbuf7_1))
    (st7_2 t) (hstage7_2 ((cfg7.slots t 2).cast nbuf7_2)) _ _ _ _ _ (before7_0 V q c t) (before7_1 V q c t) _ _

end Cert.Kernel.Reg

end
-- ==== Proof.KData.lean ====
import proofs.«403073_j42855183679829_3_alg».proof.Proof.KRegion0
import proofs.«403073_j42855183679829_3_alg».proof.Proof.KRegion1
import proofs.«403073_j42855183679829_3_alg».proof.Proof.KRegion2
import proofs.«403073_j42855183679829_3_alg».proof.Proof.KRegion3
import proofs.«403073_j42855183679829_3_alg».proof.Proof.KRegion4
import proofs.«403073_j42855183679829_3_alg».proof.Proof.KRegion5
import proofs.«403073_j42855183679829_3_alg».proof.Proof.KRegion6
import proofs.«403073_j42855183679829_3_alg».proof.Proof.KRegion7
import proofs.«403073_j42855183679829_3_alg».proof.Proof.Gen.Kernel.Regions

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

abbrev qF {n : ℕ} : Fin n → PosShare TreeShare := fun _ => fullShare

def q7 : Fin cfg7.W → PosShare TreeShare
  | ⟨0, _⟩ => fullShare.left
  | ⟨1, _⟩ => fullShare.right
  | ⟨2, _⟩ => fullShare

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev EE : Fin 9 → Dev nD → sProp 𝕄 := fun _ c => R c

variable (m : (ℓ : Loc nD τ sig) → Buf (Elt F) ℓ) (outs : Outs (F := F))

abbrev T1 : (c : Dev nD) → (b : Ref sig .tc) → Buf (Elt F) ((c : Thread nD τ).loc b) := fun c b => V1 m c b
abbrev T3 : (c : Dev nD) → (b : Ref sig .tc) → Buf (Elt F) ((c : Thread nD τ).loc b) := fun c b => V3 m outs c b
abbrev T5 : (c : Dev nD) → (b : Ref sig .tc) → Buf (Elt F) ((c : Thread nD τ).loc b) := fun c b => V5 m outs c b
abbrev T7 : (c : Dev nD) → (b : Ref sig .tc) → Buf (Elt F) ((c : Thread nD τ).loc b) := fun c b => V7 m outs c b
abbrev T9 : (c : Dev nD) → (b : Ref sig .tc) → Buf (Elt F) ((c : Thread nD τ).loc b) := fun c b => V9 m outs c b
abbrev T11 : (c : Dev nD) → (b : Ref sig .tc) → Buf (Elt F) ((c : Thread nD τ).loc b) := fun c b => V11 m outs c b
abbrev T13 : (c : Dev nD) → (b : Ref sig .tc) → Buf (Elt F) ((c : Thread nD τ).loc b) := fun c b => V13 m outs c b
abbrev T14 : (c : Dev nD) → (b : Ref sig .tc) → Buf (Elt F) ((c : Thread nD τ).loc b) := fun c b => V14 m outs c b

-- Every region's proof data as one family, each at the contents its region is entered at.
def pdats : (p : Fin 8) → (c : Dev nD) → Dat τ (Elt F) Unit ℕ (UR sig nD τ) ℕ (cfgs p) c
  | ⟨0, _⟩ => fun c => dat0 (T1 m) qF c
  | ⟨1, _⟩ => fun c => dat1 (T3 m outs) qF c
  | ⟨2, _⟩ => fun c => dat2 (T5 m outs) qF c
  | ⟨3, _⟩ => fun c => dat3 (T7 m outs) qF c
  | ⟨4, _⟩ => fun c => dat4 (T9 m outs) qF c
  | ⟨5, _⟩ => fun c => dat5 (T11 m outs) qF c
  | ⟨6, _⟩ => fun c => dat6 (T13 m outs) qF c
  | ⟨7, _⟩ => fun c => dat7 (T14 m outs) q7 c

-- `outs` is consistent: each entry is the array its region's run ends with.
structure OutsOk : Prop where
  h0 : ∀ c, outs 2 main_v18 c = (dat0 (T1 m) qF c).arrAt 2 cfg0.N
  h1 : ∀ c, outs 4 main_v21 c = (dat1 (T3 m outs) qF c).arrAt 2 cfg1.N
  h2 : ∀ c, outs 6 main_v24 c = (dat2 (T5 m outs) qF c).arrAt 2 cfg2.N
  h3 : ∀ c, outs 8 main_v27 c = (dat3 (T7 m outs) qF c).arrAt 2 cfg3.N
  h4 : ∀ c, outs 10 main_v30 c = (dat4 (T9 m outs) qF c).arrAt 2 cfg4.N
  h5 : ∀ c, outs 12 main_v33 c = (dat5 (T11 m outs) qF c).arrAt 2 cfg5.N
  h6 : ∀ c, outs 14 main_v36 c = (dat6 (T13 m outs) qF c).arrAt 2 cfg6.N
  h7 : ∀ c, outs 15 main_v37 c = (dat7 (T14 m outs) q7 c).arrAt 2 cfg7.N

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Reg

end
-- ==== Proof.KSeg0.lean ====
import proofs.«403073_j42855183679829_3_alg».proof.Proof.KData
import proofs.«403073_j42855183679829_3_alg».proof.Proof.SegGen

namespace Cert.Kernel.Reg

open Cert.Kernel Cert.Kernel.Gen Cert.Reg Idealize.ShloMosaic Idealize.ShloMosaic.TcCoe
open Idealize.ShloMosaic.Pipeline (RegionSeg)

variable {F : FTy → Type} [FloatOps F] (m : (ℓ : Loc nD τ sig) → Buf (Elt F) ℓ) (outs : Outs (F := F))

noncomputable def reg0 (hok : OutsOk m outs) : RegionSeg (pcfgs (F := F)) adm (pdats m outs) () defs₀ 𝒱₀ L lv 0 :=
  regOf 0 launch0 (V1 m) (2 : Fin cfg0.W) (by decide) (outs 2 main_v18) (fun _ => {}) (body_obligation0 (T1 m) qF) hok.h0

end Cert.Kernel.Reg
-- ==== Proof.KSeg1.lean ====
import proofs.«403073_j42855183679829_3_alg».proof.Proof.KData
import proofs.«403073_j42855183679829_3_alg».proof.Proof.SegGen

namespace Cert.Kernel.Reg

open Cert.Kernel Cert.Kernel.Gen Cert.Reg Idealize.ShloMosaic Idealize.ShloMosaic.TcCoe
open Idealize.ShloMosaic.Pipeline (RegionSeg)

variable {F : FTy → Type} [FloatOps F] (m : (ℓ : Loc nD τ sig) → Buf (Elt F) ℓ) (outs : Outs (F := F))

noncomputable def reg1 (hok : OutsOk m outs) : RegionSeg (pcfgs (F := F)) adm (pdats m outs) () defs₀ 𝒱₀ L lv 1 :=
  regOf 1 launch1 (V3 m outs) (2 : Fin cfg1.W) (by decide) (outs 4 main_v21) (fun _ => {}) (body_obligation1 (T3 m outs) qF) hok.h1

end Cert.Kernel.Reg
-- ==== Proof.KSeg2.lean ====
import proofs.«403073_j42855183679829_3_alg».proof.Proof.KData
import proofs.«403073_j42855183679829_3_alg».proof.Proof.SegGen

namespace Cert.Kernel.Reg

open Cert.Kernel Cert.Kernel.Gen Cert.Reg Idealize.ShloMosaic Idealize.ShloMosaic.TcCoe
open Idealize.ShloMosaic.Pipeline (RegionSeg)

variable {F : FTy → Type} [FloatOps F] (m : (ℓ : Loc nD τ sig) → Buf (Elt F) ℓ) (outs : Outs (F := F))

noncomputable def reg2 (hok : OutsOk m outs) : RegionSeg (pcfgs (F := F)) adm (pdats m outs) () defs₀ 𝒱₀ L lv 2 :=
  regOf 2 launch2 (V5 m outs) (2 : Fin cfg2.W) (by decide) (outs 6 main_v24) (fun _ => {}) (body_obligation2 (T5 m outs) qF) hok.h2

end Cert.Kernel.Reg
-- ==== Proof.KSeg3.lean ====
import proofs.«403073_j42855183679829_3_alg».proof.Proof.KData
import proofs.«403073_j42855183679829_3_alg».proof.Proof.SegGen

namespace Cert.Kernel.Reg

open Cert.Kernel Cert.Kernel.Gen Cert.Reg Idealize.ShloMosaic Idealize.ShloMosaic.TcCoe
open Idealize.ShloMosaic.Pipeline (RegionSeg)

variable {F : FTy → Type} [FloatOps F] (m : (ℓ : Loc nD τ sig) → Buf (Elt F) ℓ) (outs : Outs (F := F))

noncomputable def reg3 (hok : OutsOk m outs) : RegionSeg (pcfgs (F := F)) adm (pdats m outs) () defs₀ 𝒱₀ L lv 3 :=
  regOf 3 launch3 (V7 m outs) (2 : Fin cfg3.W) (by decide) (outs 8 main_v27) (fun _ => {}) (body_obligation3 (T7 m outs) qF) hok.h3

end Cert.Kernel.Reg
-- ==== Proof.KSeg4.lean ====
import proofs.«403073_j42855183679829_3_alg».proof.Proof.KData
import proofs.«403073_j42855183679829_3_alg».proof.Proof.SegGen

namespace Cert.Kernel.Reg

open Cert.Kernel Cert.Kernel.Gen Cert.Reg Idealize.ShloMosaic Idealize.ShloMosaic.TcCoe
open Idealize.ShloMosaic.Pipeline (RegionSeg)

variable {F : FTy → Type} [FloatOps F] (m : (ℓ : Loc nD τ sig) → Buf (Elt F) ℓ) (outs : Outs (F := F))

noncomputable def reg4 (hok : OutsOk m outs) : RegionSeg (pcfgs (F := F)) adm (pdats m outs) () defs₀ 𝒱₀ L lv 4 :=
  regOf 4 launch4 (V9 m outs) (2 : Fin cfg4.W) (by decide) (outs 10 main_v30) (fun _ => {}) (body_obligation4 (T9 m outs) qF) hok.h4

end Cert.Kernel.Reg
-- ==== Proof.KSeg5.lean ====
import proofs.«403073_j42855183679829_3_alg».proof.Proof.KData
import proofs.«403073_j42855183679829_3_alg».proof.Proof.SegGen

namespace Cert.Kernel.Reg

open Cert.Kernel Cert.Kernel.Gen Cert.Reg Idealize.ShloMosaic Idealize.ShloMosaic.TcCoe
open Idealize.ShloMosaic.Pipeline (RegionSeg)

variable {F : FTy → Type} [FloatOps F] (m : (ℓ : Loc nD τ sig) → Buf (Elt F) ℓ) (outs : Outs (F := F))

noncomputable def reg5 (hok : OutsOk m outs) : RegionSeg (pcfgs (F := F)) adm (pdats m outs) () defs₀ 𝒱₀ L lv 5 :=
  regOf 5 launch5 (V11 m outs) (2 : Fin cfg5.W) (by decide) (outs 12 main_v33) (fun _ => {}) (body_obligation5 (T11 m outs) qF) hok.h5

end Cert.Kernel.Reg
-- ==== Proof.KSeg6.lean ====
import proofs.«403073_j42855183679829_3_alg».proof.Proof.KData
import proofs.«403073_j42855183679829_3_alg».proof.Proof.SegGen

namespace Cert.Kernel.Reg

open Cert.Kernel Cert.Kernel.Gen Cert.Reg Idealize.ShloMosaic Idealize.ShloMosaic.TcCoe
open Idealize.ShloMosaic.Pipeline (RegionSeg)

variable {F : FTy → Type} [FloatOps F] (m : (ℓ : Loc nD τ sig) → Buf (Elt F) ℓ) (outs : Outs (F := F))

noncomputable def reg6 (hok : OutsOk m outs) : RegionSeg (pcfgs (F := F)) adm (pdats m outs) () defs₀ 𝒱₀ L lv 6 :=
  regOf 6 launch6 (V13 m outs) (2 : Fin cfg6.W) (by decide) (outs 14 main_v36) (fun _ => {}) (body_obligation6 (T13 m outs) qF) hok.h6

end Cert.Kernel.Reg
-- ==== Proof.KFrame.lean ====
import proofs.«403073_j42855183679829_3_alg».proof.Proof.KSeg0
import proofs.«403073_j42855183679829_3_alg».proof.Proof.KSeg1
import proofs.«403073_j42855183679829_3_alg».proof.Proof.KSeg2
import proofs.«403073_j42855183679829_3_alg».proof.Proof.KSeg3
import proofs.«403073_j42855183679829_3_alg».proof.Proof.KSeg4
import proofs.«403073_j42855183679829_3_alg».proof.Proof.KSeg5
import proofs.«403073_j42855183679829_3_alg».proof.Proof.KSeg6
import proofs.«403073_j42855183679829_3_alg».proof.Proof.KRun

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

-- The run of @main over any consistent `outs`: host stretches and regions chained; region 7's segment is the caller's.
set_option backward.isDefEq.respectTransparency.types false in

theorem run_all (hok : OutsOk m outs)
    (R7 : RegionSeg (pcfgs (F := F)) adm (pdats m outs) () defs₀ 𝒱₀ L lv 7)
    (hpre7 : ∀ c : Dev nD, iprop(StableHlo.held (c : Thread nD τ) (Pipeline.ucRefs τ sig) (V14 m outs c) ∗ EE (F := F) 7 c) ⊢ R7.pre c)
    (hpost7 : ∀ c : Dev nD, R7.post c ⊢ iprop(StableHlo.held (c : Thread nD τ) (Pipeline.ucRefs τ sig) (V15 m outs c) ∗ EE (F := F) 8 c)) :
    θ_run defs (onTc (τ := τ) (main (F := F))) ⟨m, fun _ => 0, ρ⟩ (fun r => ∀ c : Dev nD,
      ∀ b ∈ Pipeline.ucRefs τ sig, r.2.mem ((c : Thread nD τ).1, b) = V16 m outs c b) :=
  run_cond m emb₁ () 𝒱₀ L lv (fun _ _ => rfl) ρ outs (pdats m outs)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := EE)
    (hE0 := by
      have hm : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (iprop(emp) : sProp 𝕄)))
          ⊢ (bigSep Finset.univ fun c : Dev nD => iprop((∃ r, prngReg c r) ∗ ∃ W, owes (c : Thread nD τ) (0 : CellTallies nD τ sig Unit) W) : sProp 𝕄) :=
        bigSep_mono fun c _ => show iprop(unscopedSems0 c ∗ owes (c : Thread nD τ) ((0 : Dev nD → CellTallies nD τ sig Unit) c) ∅
            ∗ Pipeline.launchCred (0 : Dev nD → CellTallies nD τ sig Unit) c ∗ prngReg c (ρ c) ∗ (iprop(emp) : sProp 𝕄))
          ⊢ (iprop((∃ r, prngReg c r) ∗ ∃ W, owes (c : Thread nD τ) (0 : CellTallies nD τ sig Unit) W) : sProp 𝕄) from by
          iintro ⟨-, HO, -, Hp, -⟩
          isplitl [Hp]; · iexists _; iexact Hp
          iexists ∅; iexact HO
      iintro ⟨H, -⟩
      imodintro
      iapply hm
      iexact H)
    (hE8 := fun c => by
      iintro ⟨-, HO⟩
      iexact HO)
    (reg0 m outs hok) (fun _ => .rfl) (fun _ => .rfl)
    (reg1 m outs hok) (fun _ => .rfl) (fun _ => .rfl)
    (reg2 m outs hok) (fun _ => .rfl) (fun _ => .rfl)
    (reg3 m outs hok) (fun _ => .rfl) (fun _ => .rfl)
    (reg4 m outs hok) (fun _ => .rfl) (fun _ => .rfl)
    (reg5 m outs hok) (fun _ => .rfl) (fun _ => .rfl)
    (reg6 m outs hok) (fun _ => .rfl) (fun _ => .rfl)
    R7 hpre7 hpost7

end Cert.Kernel.Reg

end
-- ==== Proof.KSeg7.lean ====
import proofs.«403073_j42855183679829_3_alg».proof.Proof.KData
import proofs.«403073_j42855183679829_3_alg».proof.Proof.SegGen

noncomputable section

namespace Cert.Kernel.Reg

open Cert.Kernel Cert.Kernel.Gen Cert.Reg
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ) (outs : Outs (F := F))

theorem img7 : Finset.univ.image (Pipeline.arrRef spec7) = {main_v36, main_v37} := by decide

theorem arrBufs7 (c : Dev nD) (V : (b : Ref sig .tc) → Buf (Elt F) ((c : Thread nD τ).loc b)) :
    (Pipeline.arrBufs (Ix := Unit) (Name := ℕ) (U := UR sig nD τ) (Lvl := ℕ) spec7 c V : sProp 𝕄)
      = iprop((((c : Thread nD τ).loc main_v36) ↦{fullShare} V main_v36) ∗ (((c : Thread nD τ).loc main_v37) ↦{fullShare} V main_v37)) := by
  unfold Pipeline.arrBufs
  rw [img7, bigSep_insert (by decide), bigSep_singleton]
  rfl

theorem arrays7 (c : Dev nD) (Fn : (w : Fin cfg7.W) → Buf (Elt F) ((cfg7.win w).arr.view.loc (c : Thread nD τ))) :
    (pdats m outs 7 c).arrays Fn
      = iprop((((c : Thread nD τ).loc main_v36) ↦{fullShare.left} Fn 0) ∗ (((c : Thread nD τ).loc main_v36) ↦{fullShare.right} Fn 1)
          ∗ (((c : Thread nD τ).loc main_v37) ↦{fullShare} Fn 2)) := by
  have h0 : ((cfgs 7).win 0).arr.view.set = Finset.univ := (arr_whole7 0).set_eq_univ
  have h1 : ((cfgs 7).win 1).arr.view.set = Finset.univ := (arr_whole7 1).set_eq_univ
  have h2 : ((cfgs 7).win 2).arr.view.set = Finset.univ := (arr_whole7 2).set_eq_univ
  unfold Dat.arrays
  rw [bigSep_W7, h0, h1, h2]
  rfl

/-- The array both input windows read is cut into the two halves of its full share. -/
theorem entry7 (c : Dev nD) :
    StableHlo.held (c : Thread nD τ) (Pipeline.ucRefs τ sig) (V14 m outs c)
      ⊢ iprop((pdats m outs 7 c).arrays ((pdats m outs 7 c).arrAt · 0)
          ∗ Pipeline.unscopedRest (Ix := Unit) (Name := ℕ) (U := UR sig nD τ) (Lvl := ℕ) spec7 c (T14 m outs c)) := by
  rw [← Pipeline.unscopedBufs_held, Pipeline.unscopedBufs_split₀ (p := 7) cfgs winFacts₀7.arr_unscoped c]
  refine sep_mono ?_ .rfl
  rw [show (cfgs 7).spec = spec7 from rfl, arrBufs7, arrays7]
  iintro ⟨H36, H37⟩
  ihave H := (pointsTo_share (PosShare.mem_left_op_right fullShare)).1 $$ H36
  icases H with ⟨Hl, Hr⟩
  isplitl [Hl]; · iexact Hl
  isplitl [Hr]; · iexact Hr
  iexact H37

theorem hF7_in0 (c : Dev nD) : (pdats m outs 7 c).arrAt 0 cfg7.N = V14 m outs c main_v36 :=
  ((dat7 (T14 m outs) q7 c).arrAt_in 0 rfl _).trans (A_eq7 (T14 m outs) q7 c 0)
theorem hF7_in1 (c : Dev nD) : (pdats m outs 7 c).arrAt 1 cfg7.N = V14 m outs c main_v36 :=
  ((dat7 (T14 m outs) q7 c).arrAt_in 1 rfl _).trans (A_eq7 (T14 m outs) q7 c 1)

theorem hF7_out (hok : OutsOk m outs) (c : Dev nD) : (pdats m outs 7 c).arrAt 2 cfg7.N = V15 m outs c main_v37 :=
  (hok.h7 c).symm.trans (Function.update_self _ _ (V14 m outs c)).symm

/-- The two halves, both still at the entry contents, join back into the full share. -/
theorem exit7 (hok : OutsOk m outs) (c : Dev nD) :
    iprop((pdats m outs 7 c).arrays ((pdats m outs 7 c).arrAt · cfg7.N)
        ∗ Pipeline.unscopedRest (Ix := Unit) (Name := ℕ) (U := UR sig nD τ) (Lvl := ℕ) spec7 c (T14 m outs c))
      ⊢ StableHlo.held (c : Thread nD τ) (Pipeline.ucRefs τ sig) (V15 m outs c) := by
  rw [← Pipeline.unscopedBufs_held, Pipeline.unscopedBufs_split₀ (p := 7) cfgs winFacts₀7.arr_unscoped c]
  refine sep_mono ?_ (Entails.of_eq ?_)
  · rw [show (cfgs 7).spec = spec7 from rfl, arrBufs7, arrays7, hF7_in0, hF7_in1, hF7_out m outs hok,
      V15_of m outs c main_v36 (by decide)]
    iintro ⟨Hl, Hr, H37⟩
    ihave H := (pointsTo_share (PosShare.mem_left_op_right fullShare)).2 $$ [Hl Hr]
    · iframe
    iframe
  · unfold Pipeline.unscopedRest
    exact bigSep_congr fun b hb => by
      rw [show T14 m outs c b = V15 m outs c b from (V15_of m outs c b fun h => (Finset.mem_sdiff.mp hb).2
        (List.mem_singleton.mp h ▸ Finset.mem_image.mpr ⟨2, Finset.mem_univ _, rfl⟩)).symm]

def reg7 (hok : OutsOk m outs) : RegionSeg (pcfgs (F := F)) adm (pdats m outs) () defs₀ 𝒱₀ L lv 7 :=
  regOfSplit 7 winFacts₀7 block_pos7 stage_whole7 (V14 m outs) (V15 m outs) (fun _ => {}) (body_obligation7 (T14 m outs) q7)
    (entry7 m outs) (exit7 m outs hok)

end Cert.Kernel.Reg

end
-- ==== Proof.KOuts.lean ====
import proofs.«403073_j42855183679829_3_alg».proof.Proof.KData

set_option maxRecDepth 16384

noncomputable section

namespace Cert.Kernel.Reg

open Cert.Kernel Cert.Kernel.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

def U1 (c : Dev nD) : Valuation τ sig (Elt F) := V1 m c

abbrev TU1 : (c : Dev nD) → (b : Ref sig .tc) → Buf (Elt F) ((c : Thread nD τ).loc b) := fun c b => U1 m c b

def res0 (c : Dev nD) : Buf (Elt F) ((c : Thread nD τ).loc main_v18) := (dat0 (TU1 m) qF c).arrAt 2 cfg0.N

def U2 (c : Dev nD) : Valuation τ sig (Elt F) := Function.update (U1 m c) main_v18 (res0 m c)

def U3 (c : Dev nD) : Valuation τ sig (Elt F) := StableHlo.after hostOps1 (U2 m c)

abbrev TU3 : (c : Dev nD) → (b : Ref sig .tc) → Buf (Elt F) ((c : Thread nD τ).loc b) := fun c b => U3 m c b

def res1 (c : Dev nD) : Buf (Elt F) ((c : Thread nD τ).loc main_v21) := (dat1 (TU3 m) qF c).arrAt 2 cfg1.N

def U4 (c : Dev nD) : Valuation τ sig (Elt F) := Function.update (U3 m c) main_v21 (res1 m c)

def U5 (c : Dev nD) : Valuation τ sig (Elt F) := StableHlo.after hostOps2 (U4 m c)

abbrev TU5 : (c : Dev nD) → (b : Ref sig .tc) → Buf (Elt F) ((c : Thread nD τ).loc b) := fun c b => U5 m c b

def res2 (c : Dev nD) : Buf (Elt F) ((c : Thread nD τ).loc main_v24) := (dat2 (TU5 m) qF c).arrAt 2 cfg2.N

def U6 (c : Dev nD) : Valuation τ sig (Elt F) := Function.update (U5 m c) main_v24 (res2 m c)

def U7 (c : Dev nD) : Valuation τ sig (Elt F) := StableHlo.after hostOps3 (U6 m c)

abbrev TU7 : (c : Dev nD) → (b : Ref sig .tc) → Buf (Elt F) ((c : Thread nD τ).loc b) := fun c b => U7 m c b

def res3 (c : Dev nD) : Buf (Elt F) ((c : Thread nD τ).loc main_v27) := (dat3 (TU7 m) qF c).arrAt 2 cfg3.N

def U8 (c : Dev nD) : Valuation τ sig (Elt F) := Function.update (U7 m c) main_v27 (res3 m c)

def U9 (c : Dev nD) : Valuation τ sig (Elt F) := StableHlo.after hostOps4 (U8 m c)

abbrev TU9 : (c : Dev nD) → (b : Ref sig .tc) → Buf (Elt F) ((c : Thread nD τ).loc b) := fun c b => U9 m c b

def res4 (c : Dev nD) : Buf (Elt F) ((c : Thread nD τ).loc main_v30) := (dat4 (TU9 m) qF c).arrAt 2 cfg4.N

def U10 (c : Dev nD) : Valuation τ sig (Elt F) := Function.update (U9 m c) main_v30 (res4 m c)

def U11 (c : Dev nD) : Valuation τ sig (Elt F) := StableHlo.after hostOps5 (U10 m c)

abbrev TU11 : (c : Dev nD) → (b : Ref sig .tc) → Buf (Elt F) ((c : Thread nD τ).loc b) := fun c b => U11 m c b

def res5 (c : Dev nD) : Buf (Elt F) ((c : Thread nD τ).loc main_v33) := (dat5 (TU11 m) qF c).arrAt 2 cfg5.N

def U12 (c : Dev nD) : Valuation τ sig (Elt F) := Function.update (U11 m c) main_v33 (res5 m c)

def U13 (c : Dev nD) : Valuation τ sig (Elt F) := StableHlo.after hostOps6 (U12 m c)

abbrev TU13 : (c : Dev nD) → (b : Ref sig .tc) → Buf (Elt F) ((c : Thread nD τ).loc b) := fun c b => U13 m c b

def res6 (c : Dev nD) : Buf (Elt F) ((c : Thread nD τ).loc main_v36) := (dat6 (TU13 m) qF c).arrAt 2 cfg6.N

def U14 (c : Dev nD) : Valuation τ sig (Elt F) := Function.update (U13 m c) main_v36 (res6 m c)

abbrev TU14 : (c : Dev nD) → (b : Ref sig .tc) → Buf (Elt F) ((c : Thread nD τ).loc b) := fun c b => U14 m c b

def res7 (c : Dev nD) : Buf (Elt F) ((c : Thread nD τ).loc main_v37) := (dat7 (TU14 m) q7 c).arrAt 2 cfg7.N

def U15 (c : Dev nD) : Valuation τ sig (Elt F) := Function.update (U14 m c) main_v37 (res7 m c)

def outsOf : Outs (F := F) := fun J r c =>
  match J with
  | 2 => U2 m c r | 4 => U4 m c r | 6 => U6 m c r | 8 => U8 m c r | 10 => U10 m c r | 12 => U12 m c r | 14 => U14 m c r | 15 => U15 m c r
  | _ => U1 m c r

/-- Overwriting a slot with what the overwritten function already holds there changes nothing. -/
theorem update_update_self {α : Type} [DecidableEq α] {β : α → Type} {f g : ∀ a, β a} (h : f = g) (a : α) (v : β a) :
    Function.update f a (Function.update g a v a) = Function.update g a v := by
  rw [h, Function.update_self]

theorem V1_eq (c : Dev nD) : V1 m c = U1 m c := rfl
theorem V2_eq (c : Dev nD) : V2 m (outsOf m) c = U2 m c := update_update_self (V1_eq m c) _ _
theorem V3_eq (c : Dev nD) : V3 m (outsOf m) c = U3 m c := congrArg (StableHlo.after hostOps1) (V2_eq m c)
theorem V4_eq (c : Dev nD) : V4 m (outsOf m) c = U4 m c := update_update_self (V3_eq m c) _ _
theorem V5_eq (c : Dev nD) : V5 m (outsOf m) c = U5 m c := congrArg (StableHlo.after hostOps2) (V4_eq m c)
theorem V6_eq (c : Dev nD) : V6 m (outsOf m) c = U6 m c := update_update_self (V5_eq m c) _ _
theorem V7_eq (c : Dev nD) : V7 m (outsOf m) c = U7 m c := congrArg (StableHlo.after hostOps3) (V6_eq m c)
theorem V8_eq (c : Dev nD) : V8 m (outsOf m) c = U8 m c := update_update_self (V7_eq m c) _ _
theorem V9_eq (c : Dev nD) : V9 m (outsOf m) c = U9 m c := congrArg (StableHlo.after hostOps4) (V8_eq m c)
theorem V10_eq (c : Dev nD) : V10 m (outsOf m) c = U10 m c := update_update_self (V9_eq m c) _ _
theorem V11_eq (c : Dev nD) : V11 m (outsOf m) c = U11 m c := congrArg (StableHlo.after hostOps5) (V10_eq m c)
theorem V12_eq (c : Dev nD) : V12 m (outsOf m) c = U12 m c := update_update_self (V11_eq m c) _ _
theorem V13_eq (c : Dev nD) : V13 m (outsOf m) c = U13 m c := congrArg (StableHlo.after hostOps6) (V12_eq m c)
theorem V14_eq (c : Dev nD) : V14 m (outsOf m) c = U14 m c := update_update_self (V13_eq m c) _ _
theorem V15_eq (c : Dev nD) : V15 m (outsOf m) c = U15 m c := update_update_self (V14_eq m c) _ _

/-- Each entry of the unknown is its region's result, the region entered at the fold so far. -/
theorem outsOf_ok : OutsOk m (outsOf m) where
  h0 c := by rw [show T1 m = TU1 m from funext fun c => funext fun b => congrFun (V1_eq m c) b]; show U2 m c main_v18 = _; unfold U2; rw [Function.update_self]; rfl
  h1 c := by rw [show T3 m (outsOf m) = TU3 m from funext fun c => funext fun b => congrFun (V3_eq m c) b]; show U4 m c main_v21 = _; unfold U4; rw [Function.update_self]; rfl
  h2 c := by rw [show T5 m (outsOf m) = TU5 m from funext fun c => funext fun b => congrFun (V5_eq m c) b]; show U6 m c main_v24 = _; unfold U6; rw [Function.update_self]; rfl
  h3 c := by rw [show T7 m (outsOf m) = TU7 m from funext fun c => funext fun b => congrFun (V7_eq m c) b]; show U8 m c main_v27 = _; unfold U8; rw [Function.update_self]; rfl
  h4 c := by rw [show T9 m (outsOf m) = TU9 m from funext fun c => funext fun b => congrFun (V9_eq m c) b]; show U10 m c main_v30 = _; unfold U10; rw [Function.update_self]; rfl
  h5 c := by rw [show T11 m (outsOf m) = TU11 m from funext fun c => funext fun b => congrFun (V11_eq m c) b]; show U12 m c main_v33 = _; unfold U12; rw [Function.update_self]; rfl
  h6 c := by rw [show T13 m (outsOf m) = TU13 m from funext fun c => funext fun b => congrFun (V13_eq m c) b]; show U14 m c main_v36 = _; unfold U14; rw [Function.update_self]; rfl
  h7 c := by rw [show T14 m (outsOf m) = TU14 m from funext fun c => funext fun b => congrFun (V14_eq m c) b]; show U15 m c main_v37 = _; unfold U15; rw [Function.update_self]; rfl

end Cert.Kernel.Reg

end
-- ==== Proof.KFinal.lean ====
import proofs.«403073_j42855183679829_3_alg».proof.Proof.KFrame
import proofs.«403073_j42855183679829_3_alg».proof.Proof.KSeg7
import proofs.«403073_j42855183679829_3_alg».proof.Proof.KOuts

set_option maxRecDepth 16384

noncomputable section

namespace Cert.Kernel.Reg

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem run_final : θ_run defs (onTc (τ := τ) (main (F := F))) ⟨m, fun _ => 0, ρ⟩ (fun r => ∀ c : Dev nD,
      ∀ b ∈ Pipeline.ucRefs τ sig, r.2.mem ((c : Thread nD τ).1, b) = V16 m (outsOf m) c b) :=
  run_all m ρ (outsOf m) (outsOf_ok m) (reg7 m (outsOf m) (outsOf_ok m)) (fun _ => .rfl) (fun _ => .rfl)

/-- Every unscoped buffer ends at the last valuation; no item writes an argument, so the arguments end as launched. -/
theorem run_value : θ_run defs (onTc (τ := τ) (main (F := F))) ⟨m, fun _ => 0, ρ⟩ (fun r => ∀ c : Dev nD,
      r.2.mem ((c.tc : Thread nD τ).loc main_v38) = V16 m (outsOf m) c main_v38
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v38 (by decide)),
      (h c _ (mem_uc main_arg0 (by decide))).trans (V16_main_arg0 m (outsOf m) c),
      (h c _ (mem_uc main_arg1 (by decide))).trans (V16_main_arg1 m (outsOf m) c),
      (h c _ (mem_uc main_arg2 (by decide))).trans (V16_main_arg2 m (outsOf m) c),
      (h c _ (mem_uc main_arg3 (by decide))).trans (V16_main_arg3 m (outsOf m) c),
      (h c _ (mem_uc main_arg4 (by decide))).trans (V16_main_arg4 m (outsOf m) c),
      (h c _ (mem_uc main_arg5 (by decide))).trans (V16_main_arg5 m (outsOf m) c),
      (h c _ (mem_uc main_arg6 (by decide))).trans (V16_main_arg6 m (outsOf m) c),
      (h c _ (mem_uc main_arg7 (by decide))).trans (V16_main_arg7 m (outsOf m) c),
      (h c _ (mem_uc main_arg8 (by decide))).trans (V16_main_arg8 m (outsOf m) c),
      (h c _ (mem_uc main_arg9 (by decide))).trans (V16_main_arg9 m (outsOf m) c),
      (h c _ (mem_uc main_arg10 (by decide))).trans (V16_main_arg10 m (outsOf m) c)⟩)
    (run_final m ρ)

end Cert.Kernel.Reg

end
-- ==== Proof.Spec.lean ====
import Idealize.ShloMosaic.PureOps.Ideal

noncomputable section

namespace Cert.Spec

open scoped BigOperators

abbrev N : ℕ := 10000

abbrev E : ℕ := 320000

def IsReal (x : EReal) : Prop := ∃ r : ℝ, x = (r : EReal)

def IsReal2 {A B : ℕ} (X : Fin A → Fin B → EReal) : Prop := ∀ a b, IsReal (X a b)

def node (w : BitVec 32) : Fin N := ⟨min w.toInt.toNat (N - 1), by
  have : min w.toInt.toNat (N - 1) ≤ N - 1 := Nat.min_le_right _ _
  have hN : N - 1 < N := by decide
  omega⟩

def proj {Cin Cout : ℕ} (h : Fin N → Fin Cin → EReal) (W : Fin Cin → Fin Cout → EReal) : Fin N → Fin Cout → EReal :=
  fun c j => ∑ k : Fin Cin, h c k * W k j

def spmm (row col : Fin E → BitVec 32) (vals : Fin E → EReal) {C : ℕ} (X : Fin N → Fin C → EReal) : Fin N → Fin C → EReal :=
  fun i j => ∑ e : Fin E, if (row e).toInt = (i.val : ℤ) then vals e * X (node (col e)) j else 0

def adj (row col : Fin E → BitVec 32) (vals : Fin E → EReal) : Fin N → Fin N → EReal :=
  fun i c => ∑ e : Fin E, if (row e).toInt = (i.val : ℤ) ∧ (col e).toInt = (c.val : ℤ) then vals e else 0

def dmm (A : Fin N → Fin N → EReal) {C : ℕ} (X : Fin N → Fin C → EReal) : Fin N → Fin C → EReal :=
  fun i j => ∑ c : Fin N, A i c * X c j

def relu (x : EReal) : EReal := max x 0

def step (agg : {C : ℕ} → (Fin N → Fin C → EReal) → Fin N → Fin C → EReal) {Cin Cout : ℕ}
    (h : Fin N → Fin Cin → EReal) (W : Fin Cin → Fin Cout → EReal) : Fin N → Fin Cout → EReal :=
  fun i j => relu (agg (proj h W) i j)

def encode (agg : {C : ℕ} → (Fin N → Fin C → EReal) → Fin N → Fin C → EReal)
    (feat : Fin N → Fin 512 → EReal) (W0 : Fin 512 → Fin 32 → EReal)
    (W1 W2 W3 W4 W5 : Fin 32 → Fin 32 → EReal) (W6 : Fin 32 → Fin 16 → EReal) : Fin N → Fin 16 → EReal :=
  agg (proj (step agg (step agg (step agg (step agg (step agg (step agg feat W0) W1) W2) W3) W4) W5) W6)

def decode (z : Fin N → Fin 16 → EReal) : Fin N → Fin N → EReal :=
  fun i j => ∑ k : Fin 16, z i k * z j k

-- The specification over plain coordinates, with the adjacency applied edge by edge
def sparseResult (row col : Fin E → BitVec 32) (vals : Fin E → EReal)
    (feat : Fin N → Fin 512 → EReal) (W0 : Fin 512 → Fin 32 → EReal)
    (W1 W2 W3 W4 W5 : Fin 32 → Fin 32 → EReal) (W6 : Fin 32 → Fin 16 → EReal) : Fin N → Fin N → EReal :=
  decode (encode (fun X => spmm row col vals X) feat W0 W1 W2 W3 W4 W5 W6)

-- and with the adjacency as a dense matrix.
def denseResult (row col : Fin E → BitVec 32) (vals : Fin E → EReal)
    (feat : Fin N → Fin 512 → EReal) (W0 : Fin 512 → Fin 32 → EReal)
    (W1 W2 W3 W4 W5 : Fin 32 → Fin 32 → EReal) (W6 : Fin 32 → Fin 16 → EReal) : Fin N → Fin N → EReal :=
  decode (encode (fun X => dmm (adj row col vals) X) feat W0 W1 W2 W3 W4 W5 W6)

end Cert.Spec

end
-- ==== Proof.Cur.lean ====
import Idealize.ShloMosaic.Lib.ValueIdx

namespace Cert.Cur

open Idealize.ShloMosaic Idealize.ShloMosaic.ValueIdx
open scoped BigOperators

def cur1 {α : Type} {n : ℕ} (x : (⟨1, ![n]⟩ : Shape).Idx → α) : Fin n → α := fun i => x (ix1 i)

def cur2 {α : Type} {a b : ℕ} (x : (⟨2, ![a, b]⟩ : Shape).Idx → α) : Fin a → Fin b → α := fun i j => x (ix2 i j)

def flatRow (f : Fin 100000000) : Fin 10000 := ⟨f.val / 10000, by have := f.isLt; omega⟩

def flatCol (f : Fin 100000000) : Fin 10000 := ⟨f.val % 10000, Nat.mod_lt _ (by decide)⟩

def flat2 {α : Type} (x : Fin 10000 → Fin 10000 → α) : (⟨1, ![100000000]⟩ : Shape).Idx → α :=
  fun f => x (flatRow (f 0)) (flatCol (f 0))

/-- A rank-2 product that contracts the left operand's columns with the right operand's rows, summed at row `p` and column `j`:
    the contraction index is its one coordinate `k`, the left index is `(p, k)`, the right index `(k, j)`. -/
theorem sum_dot2 {R : Type} [AddCommMonoid R] [Mul R] {a n b : ℕ} (d : DotDims ⟨2, ![a, n]⟩ ⟨2, ![n, b]⟩ ⟨2, ![a, b]⟩)
    (hr : d.contr.rank = 1) (hs : d.contr.size ⟨0, by omega⟩ = n) (hl : d.lhsContracting = [1]) (hrc : d.rhsContracting = [0])
    (hl0 : ∀ i q, (d.lhsIdx i q 0).val = (i 0).val) (hr1 : ∀ i q, (d.rhsIdx i q 1).val = (i 1).val)
    (l : (⟨2, ![a, n]⟩ : Shape).Idx → R) (r : (⟨2, ![n, b]⟩ : Shape).Idx → R) (p : Fin a) (j : Fin b) :
    ∑ q : d.contr.Idx, l (d.lhsIdx (ix2 p j) q) * r (d.rhsIdx (ix2 p j) q) = ∑ k : Fin n, l (ix2 p k) * r (ix2 k j) := by
  rw [← Equiv.sum_comp (contrEquiv1 d n hr hs).symm]
  refine Finset.sum_congr rfl fun k _ => ?_
  have hk := contrEquiv1_symm_val d n hr hs k
  have el : d.lhsIdx (ix2 p j) ((contrEquiv1 d n hr hs).symm k) = ix2 p k := funext fun x => Fin.ext (by
    match x with
    | ⟨0, _⟩ => exact hl0 _ _
    | ⟨1, _⟩ => exact (d.lhsIdx_val_of_single hl _ _).trans hk)
  have er : d.rhsIdx (ix2 p j) ((contrEquiv1 d n hr hs).symm k) = ix2 k j := funext fun x => Fin.ext (by
    match x with
    | ⟨0, _⟩ => exact (d.rhsIdx_val_of_single hrc _ _).trans hk
    | ⟨1, _⟩ => exact hr1 _ _)
  rw [el, er]

end Cert.Cur
-- ==== Proof.KiValue0.lean ====
import proofs.«403073_j42855183679829_3_alg».proof.Proof.KiRegion0
import proofs.«403073_j42855183679829_3_alg».proof.Proof.Spec
import proofs.«403073_j42855183679829_3_alg».proof.Proof.Cur
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen Cert.Cur
open Idealize.ShloMosaic Idealize.ShloMosaic.TcCoe Idealize.ShloMosaic.ValueIdx
open Idealize.SL Idealize.SL.RA
open Idealize.ShloMosaic.Pipeline (Dat)
open scoped BigOperators

/-- The stored value at row `p`, column `j` of the block: the inner product of row `p` of the first block with column `j` of the second, rectified. -/
theorem pay0_apply (x0 : Vec Ideal S400x10000 .bf16) (x1 : Vec Ideal S10000x32 .bf16) (p : Fin 400) (j : Fin 32) :
    k0_pay1 (F := Ideal) x0 x1 (ix2 p j) = max (∑ k : Fin 10000, x0 (ix2 p k) * x1 (ix2 k j)) 0 := by
  unfold k0_pay1
  simp only [shapeCast_self]
  show max (FloatOps.matmul dot_S400x10000_S10000x32_S400x32_1_0_0_1_n_n none x0 x1 (constant (F := Ideal) S400x32 .f32 0x00000000#32) (ix2 p j)) (Ideal.ofBits .f32 0x00000000#32) = _
  rw [Ideal.matmul_constant_zero_apply, Ideal.ofBits_zero_f32]
  exact congrArg (max · 0) (sum_dot2 dot_S400x10000_S10000x32_S400x32_1_0_0_1_n_n rfl rfl rfl rfl
    (fun i q => by
      unfold DotDims.lhsIdx
      rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
      rfl)
    (fun i q => by
      unfold DotDims.rhsIdx
      rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
      rfl) x0 x1 p j)

theorem zero_offsets0 : (![0, 0] : Fin 2 → Nat) = fun _ => 0 := funext fun a => by fin_cases a <;> rfl

theorem out0_2_apply (x0 : Vec Ideal S400x10000 .bf16) (x1 : Vec Ideal S10000x32 .bf16) (p : Fin 400) (j : Fin 32) :
    out0_2 (F := Ideal) x0 x1 (ix2 p j) = max (∑ k : Fin 10000, x0 (ix2 p k) * x1 (ix2 k j)) 0 := by
  unfold out0_2
  rw [View.canon_unit_zero zero_offsets0]
  simp only [View.ld_unit_zero (S := S400x10000) zero_offsets0, View.ld_unit_zero (S := S10000x32) zero_offsets0]
  exact pay0_apply x0 x1 p j

/-- The rectified product of two arrays: entry `(i, j)` is `max (Σ_k a[i, k] · b[k, j]) 0`. -/
def G0 (a : S10000x10000.Idx → EReal) (b : S10000x32.Idx → EReal) : S10000x32.Idx → EReal :=
  fun i => max (∑ k : Fin 10000, a (ix2 (i 0) k) * b (ix2 k (i 1))) 0

theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The first window's block at point `t` is rows `400·t … 400·t + 399` of its array. -/
theorem iblk0_0_apply (c : Dev nD) (t : Fin cfg0.N) (p : Fin 400) (k : Fin 10000) (r : Fin 10000) (hr : r.val = 400 * t.val + p.val) :
    (iblk0 V c 0 t : Vec Ideal S400x10000 .bf16) (ix2 p k) = (V c main_v15 : S10000x10000.Idx → EReal) (ix2 r k) := by
  obtain ⟨e0, e1, -⟩ := index_facts0 t
  unfold iblk0
  rw [View.read_apply]
  show V c main_v15 _ = V c main_v15 _
  congr 1
  funext a
  apply Fin.ext
  match a with
  | ⟨0, _⟩ => show win0_0.index t (0 : Fin 2) * 400 + 1 * p.val = r.val; rw [e0, hr]; omega
  | ⟨1, _⟩ => show win0_0.index t (1 : Fin 2) * 10000 + 1 * k.val = k.val; rw [e1]; omega

/-- The second window's block at every point is its array whole. -/
theorem iblk0_1_apply (c : Dev nD) (t : Fin cfg0.N) (k : Fin 10000) (j : Fin 32) :
    (iblk0 V c 1 t : Vec Ideal S10000x32 .bf16) (ix2 k j) = (V c main_v17 : S10000x32.Idx → EReal) (ix2 k j) := by
  obtain ⟨-, -, e2, e3, -⟩ := index_facts0 t
  unfold iblk0
  rw [View.read_apply]
  show V c main_v17 _ = V c main_v17 _
  congr 1
  funext a
  apply Fin.ext
  match a with
  | ⟨0, _⟩ => show win0_1.index t (0 : Fin 2) * 10000 + 1 * k.val = k.val; rw [e2]; omega
  | ⟨1, _⟩ => show win0_1.index t (1 : Fin 2) * 32 + 1 * j.val = j.val; rw [e3]; omega

theorem out0_2_point (c : Dev nD) (t : Fin cfg0.N) (y : S400x32.Idx) (i : S10000x32.Idx)
    (hi0 : (i 0).val = 400 * t.val + (y 0).val) (hi1 : (i 1).val = (y 1).val) :
    out0_2 (F := Ideal) (iblk0 V c 0 t) (iblk0 V c 1 t) y = G0 (V c main_v15) (V c main_v17) i := by
  rw [eq_ix2 y]
  refine (out0_2_apply _ _ (y 0) (y 1)).trans ?_
  unfold G0
  congr 1
  refine Finset.sum_congr rfl fun k _ => ?_
  rw [iblk0_0_apply V c t (y 0) k (i 0) hi0, iblk0_1_apply V c t k (y 1)]
  have hj : (i 1) = (y 1) := Fin.ext hi1
  rw [hj]

variable (q : Fin cfg0.W → PosShare TreeShare)

/-- What point `t` writes back is block `t` of the rectified product of the two arrays as the region finds them. -/
theorem flushed0_eq (c : Dev nD) (t : Fin cfg0.N) :
    (dat0 (F := Ideal) V q c).flushed 2 t = ((cfg0.win 2).blk t).view.read (Elt Ideal) (G0 (V c main_v15) (V c main_v17)) := by
  show (cfg0.win 2).cut (grid0.coords t) ((dat0 V q c).after 2 t) = _
  rw [after0_2]
  obtain ⟨-, -, -, -, e4, e5⟩ := index_facts0 t
  funext y
  show out0_2 (F := Ideal) (iblk0 V c 0 t) (iblk0 V c 1 t) y = G0 (V c main_v15) (V c main_v17) (((cfg0.win 2).blk t).view.emb y)
  refine out0_2_point V c t y _ ?_ ?_
  · show win0_2.index t (0 : Fin 2) * 400 + 1 * (y 0).val = 400 * t.val + (y 0).val
    rw [e4]; omega
  · show win0_2.index t (1 : Fin 2) * 32 + 1 * (y 1).val = (y 1).val
    rw [e5]; omega

theorem mem_blk0 (t : Fin cfg0.N) (i : S10000x32.Idx) :
    i ∈ ((cfg0.win 2).blk t).view.set ↔ ∀ a : Fin 2, win0_2.index t a * S400x32.size a ≤ (i a).val ∧ (i a).val < win0_2.index t a * S400x32.size a + S400x32.size a := by
  show i ∈ ((View.whole main_v18).slice (win0_2.rect t)).set ↔ _
  rw [View.set_slice_whole, Rect.mem_set_unit]
  exact Iff.rfl

/-- The 25 row blocks tile the output array: row `r` lies in the block of point `r / 400`, which writes back. -/
theorem cover0 (i : S10000x32.Idx) :
    ∃ t : Fin cfg0.N, (cfg0.win 2).flush t = true ∧ i ∈ ((cfg0.win 2).blk t).view.set := by
  have h0 : (i 0).val < 10000 := idx2_lt0 i
  have h1 : (i 1).val < 32 := idx2_lt1 i
  have hN : cfg0.N = 25 := N_0
  have ht : (i 0).val / 400 < cfg0.N := by rw [hN]; omega
  obtain ⟨-, -, -, -, e4, e5⟩ := index_facts0 ⟨(i 0).val / 400, ht⟩
  refine ⟨⟨(i 0).val / 400, ht⟩, flush0_2 _, ?_⟩
  rw [mem_blk0]
  intro a
  match a with
  | ⟨0, _⟩ =>
    show win0_2.index ⟨(i 0).val / 400, ht⟩ (0 : Fin 2) * 400 ≤ (i 0).val ∧ (i 0).val < win0_2.index ⟨(i 0).val / 400, ht⟩ (0 : Fin 2) * 400 + 400
    rw [e4]; show (i 0).val / 400 * 400 ≤ (i 0).val ∧ (i 0).val < (i 0).val / 400 * 400 + 400
    omega
  | ⟨1, _⟩ =>
    show win0_2.index ⟨(i 0).val / 400, ht⟩ (1 : Fin 2) * 32 ≤ (i 1).val ∧ (i 1).val < win0_2.index ⟨(i 0).val / 400, ht⟩ (1 : Fin 2) * 32 + 32
    rw [e5]; omega

theorem final0 (c : Dev nD) : (dat0 (F := Ideal) V q c).arrAt 2 cfg0.N = G0 (V c main_v15) (V c main_v17) :=
  (dat0 (F := Ideal) V q c).arrAt_eq_of_cover 2 (G0 (V c main_v15) (V c main_v17)) (fun t _ => flushed0_eq V q c t) cover0

theorem arr0_apply (c : Dev nD) (i : Fin 10000) (j : Fin 32) :
    ((dat0 (F := Ideal) V q c).arrAt 2 cfg0.N : S10000x32.Idx → EReal) (ix2 i j)
      = Spec.relu (∑ k : Fin 10000, cur2 (α := EReal) (V c main_v15) i k * cur2 (α := EReal) (V c main_v17) k j) := by
  rw [final0 V q c]
  rfl

end Cert.KernelIdeal.Reg

end
-- ==== Proof.KiValue1.lean ====
import proofs.«403073_j42855183679829_3_alg».proof.Proof.KiRegion1
import proofs.«403073_j42855183679829_3_alg».proof.Proof.KiValue0

set_option maxRecDepth 16384

noncomputable section

namespace Cert.KernelIdeal.Reg

open Cert.KernelIdeal Cert.KernelIdeal.Gen Cert.Cur
open Idealize.ShloMosaic Idealize.ShloMosaic.TcCoe Idealize.ShloMosaic.ValueIdx
open Idealize.SL Idealize.SL.RA
open Idealize.ShloMosaic.Pipeline (Dat)
open scoped BigOperators

theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The first window's block at point `t` is rows `400·t … 400·t + 399` of its array. -/
theorem iblk1_0_apply (c : Dev nD) (t : Fin cfg1.N) (p : Fin 400) (k : Fin 10000) (r : Fin 10000) (hr : r.val = 400 * t.val + p.val) :
    (iblk1 V c 0 t : Vec Ideal S400x10000 .bf16) (ix2 p k) = (V c main_v15 : S10000x10000.Idx → EReal) (ix2 r k) := by
  obtain ⟨e0, e1, -⟩ := index_facts1 t
  unfold iblk1
  rw [View.read_apply]
  show V c main_v15 _ = V c main_v15 _
  congr 1
  funext a
  apply Fin.ext
  match a with
  | ⟨0, _⟩ => show win1_0.index t (0 : Fin 2) * 400 + 1 * p.val = r.val; rw [e0, hr]; omega
  | ⟨1, _⟩ => show win1_0.index t (1 : Fin 2) * 10000 + 1 * k.val = k.val; rw [e1]; omega

/-- The second window's block at every point is its array whole. -/
theorem iblk1_1_apply (c : Dev nD) (t : Fin cfg1.N) (k : Fin 10000) (j : Fin 32) :
    (iblk1 V c 1 t : Vec Ideal S10000x32 .bf16) (ix2 k j) = (V c main_v20 : S10000x32.Idx → EReal) (ix2 k j) := by
  obtain ⟨-, -, e2, e3, -⟩ := index_facts1 t
  unfold iblk1
  rw [View.read_apply]
  show V c main_v20 _ = V c main_v20 _
  congr 1
  funext a
  apply Fin.ext
  match a with
  | ⟨0, _⟩ => show win1_1.index t (0 : Fin 2) * 10000 + 1 * k.val = k.val; rw [e2]; omega
  | ⟨1, _⟩ => show win1_1.index t (1 : Fin 2) * 32 + 1 * j.val = j.val; rw [e3]; omega

theorem out1_2_point (c : Dev nD) (t : Fin cfg1.N) (y : S400x32.Idx) (i : S10000x32.Idx)
    (hi0 : (i 0).val = 400 * t.val + (y 0).val) (hi1 : (i 1).val = (y 1).val) :
    out0_2 (F := Ideal) (iblk1 V c 0 t) (iblk1 V c 1 t) y = G0 (V c main_v15) (V c main_v20) i := by
  rw [eq_ix2 y]
  refine (out0_2_apply _ _ (y 0) (y 1)).trans ?_
  unfold G0
  congr 1
  refine Finset.sum_congr rfl fun k _ => ?_
  rw [iblk1_0_apply V c t (y 0) k (i 0) hi0, iblk1_1_apply V c t k (y 1)]
  have hj : (i 1) = (y 1) := Fin.ext hi1
  rw [hj]

variable (q : Fin cfg1.W → PosShare TreeShare)

/-- What point `t` writes back is block `t` of the rectified product of the two arrays as the region finds them. -/
theorem flushed1_eq (c : Dev nD) (t : Fin cfg1.N) :
    (dat1 (F := Ideal) V q c).flushed 2 t = ((cfg1.win 2).blk t).view.read (Elt Ideal) (G0 (V c main_v15) (V c main_v20)) := by
  show (cfg1.win 2).cut (grid1.coords t) ((dat1 V q c).after 2 t) = _
  rw [after1_2]
  obtain ⟨-, -, -, -, e4, e5⟩ := index_facts1 t
  funext y
  show out0_2 (F := Ideal) (iblk1 V c 0 t) (iblk1 V c 1 t) y = G0 (V c main_v15) (V c main_v20) (((cfg1.win 2).blk t).view.emb y)
  refine out1_2_point V c t y _ ?_ ?_
  · show win1_2.index t (0 : Fin 2) * 400 + 1 * (y 0).val = 400 * t.val + (y 0).val
    rw [e4]; omega
  · show win1_2.index t (1 : Fin 2) * 32 + 1 * (y 1).val = (y 1).val
    rw [e5]; omega

theorem mem_blk1 (t : Fin cfg1.N) (i : S10000x32.Idx) :
    i ∈ ((cfg1.win 2).blk t).view.set ↔ ∀ a : Fin 2, win1_2.index t a * S400x32.size a ≤ (i a).val ∧ (i a).val < win1_2.index t a * S400x32.size a + S400x32.size a := by
  show i ∈ ((View.whole main_v21).slice (win1_2.rect t)).set ↔ _
  rw [View.set_slice_whole, Rect.mem_set_unit]
  exact Iff.rfl

/-- The 25 row blocks tile the output array: row `r` lies in the block of point `r / 400`, which writes back. -/
theorem cover1 (i : S10000x32.Idx) :
    ∃ t : Fin cfg1.N, (cfg1.win 2).flush t = true ∧ i ∈ ((cfg1.win 2).blk t).view.set := by
  have h0 : (i 0).val < 10000 := idx2_lt0 i
  have h1 : (i 1).val < 32 := idx2_lt1 i
  have hN : cfg1.N = 25 := N_1
  have ht : (i 0).val / 400 < cfg1.N := by rw [hN]; omega
  obtain ⟨-, -, -, -, e4, e5⟩ := index_facts1 ⟨(i 0).val / 400, ht⟩
  refine ⟨⟨(i 0).val / 400, ht⟩, flush1_2 _, ?_⟩
  rw [mem_blk1]
  intro a
  match a with
  | ⟨0, _⟩ =>
    show win1_2.index ⟨(i 0).val / 400, ht⟩ (0 : Fin 2) * 400 ≤ (i 0).val ∧ (i 0).val < win1_2.index ⟨(i 0).val / 400, ht⟩ (0 : Fin 2) * 400 + 400
    rw [e4]; show (i 0).val / 400 * 400 ≤ (i 0).val ∧ (i 0).val < (i 0).val / 400 * 400 + 400
    omega
  | ⟨1, _⟩ =>
    show win1_2.index ⟨(i 0).val / 400, ht⟩ (1 : Fin 2) * 32 ≤ (i 1).val ∧ (i 1).val < win1_2.index ⟨(i 0).val / 400, ht⟩ (1 : Fin 2) * 32 + 32
    rw [e5]; omega

theorem final1 (c : Dev nD) : (dat1 (F := Ideal) V q c).arrAt 2 cfg1.N = G0 (V c main_v15) (V c main_v20) :=
  (dat1 (F := Ideal) V q c).arrAt_eq_of_cover 2 (G0 (V c main_v15) (V c main_v20)) (fun t _ => flushed1_eq V q c t) cover1

theorem arr1_apply (c : Dev nD) (i : Fin 10000) (j : Fin 32) :
    ((dat1 (F := Ideal) V q c).arrAt 2 cfg1.N : S10000x32.Idx → EReal) (ix2 i j)
      = Spec.relu (∑ k : Fin 10000, cur2 (α := EReal) (V c main_v15) i k * cur2 (α := EReal) (V c main_v20) k j) := by
  rw [final1 V q c]
  rfl

end Cert.KernelIdeal.Reg

end
-- ==== Proof.KiValue2.lean ====
import proofs.«403073_j42855183679829_3_alg».proof.Proof.KiRegion2
import proofs.«403073_j42855183679829_3_alg».proof.Proof.KiValue0

set_option maxRecDepth 16384

noncomputable section

namespace Cert.KernelIdeal.Reg

open Cert.KernelIdeal Cert.KernelIdeal.Gen Cert.Cur
open Idealize.ShloMosaic Idealize.ShloMosaic.TcCoe Idealize.ShloMosaic.ValueIdx
open Idealize.SL Idealize.SL.RA
open Idealize.ShloMosaic.Pipeline (Dat)
open scoped BigOperators

theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The first window's block at point `t` is rows `400·t … 400·t + 399` of its array. -/
theorem iblk2_0_apply (c : Dev nD) (t : Fin cfg2.N) (p : Fin 400) (k : Fin 10000) (r : Fin 10000) (hr : r.val = 400 * t.val + p.val) :
    (iblk2 V c 0 t : Vec Ideal S400x10000 .bf16) (ix2 p k) = (V c main_v15 : S10000x10000.Idx → EReal) (ix2 r k) := by
  obtain ⟨e0, e1, -⟩ := index_facts2 t
  unfold iblk2
  rw [View.read_apply]
  show V c main_v15 _ = V c main_v15 _
  congr 1
  funext a
  apply Fin.ext
  match a with
  | ⟨0, _⟩ => show win2_0.index t (0 : Fin 2) * 400 + 1 * p.val = r.val; rw [e0, hr]; omega
  | ⟨1, _⟩ => show win2_0.index t (1 : Fin 2) * 10000 + 1 * k.val = k.val; rw [e1]; omega

/-- The second window's block at every point is its array whole. -/
theorem iblk2_1_apply (c : Dev nD) (t : Fin cfg2.N) (k : Fin 10000) (j : Fin 32) :
    (iblk2 V c 1 t : Vec Ideal S10000x32 .bf16) (ix2 k j) = (V c main_v23 : S10000x32.Idx → EReal) (ix2 k j) := by
  obtain ⟨-, -, e2, e3, -⟩ := index_facts2 t
  unfold iblk2
  rw [View.read_apply]
  show V c main_v23 _ = V c main_v23 _
  congr 1
  funext a
  apply Fin.ext
  match a with
  | ⟨0, _⟩ => show win2_1.index t (0 : Fin 2) * 10000 + 1 * k.val = k.val; rw [e2]; omega
  | ⟨1, _⟩ => show win2_1.index t (1 : Fin 2) * 32 + 1 * j.val = j.val; rw [e3]; omega

theorem out2_2_point (c : Dev nD) (t : Fin cfg2.N) (y : S400x32.Idx) (i : S10000x32.Idx)
    (hi0 : (i 0).val = 400 * t.val + (y 0).val) (hi1 : (i 1).val = (y 1).val) :
    out0_2 (F := Ideal) (iblk2 V c 0 t) (iblk2 V c 1 t) y = G0 (V c main_v15) (V c main_v23) i := by
  rw [eq_ix2 y]
  refine (out0_2_apply _ _ (y 0) (y 1)).trans ?_
  unfold G0
  congr 1
  refine Finset.sum_congr rfl fun k _ => ?_
  rw [iblk2_0_apply V c t (y 0) k (i 0) hi0, iblk2_1_apply V c t k (y 1)]
  have hj : (i 1) = (y 1) := Fin.ext hi1
  rw [hj]

variable (q : Fin cfg2.W → PosShare TreeShare)

/-- What point `t` writes back is block `t` of the rectified product of the two arrays as the region finds them. -/
theorem flushed2_eq (c : Dev nD) (t : Fin cfg2.N) :
    (dat2 (F := Ideal) V q c).flushed 2 t = ((cfg2.win 2).blk t).view.read (Elt Ideal) (G0 (V c main_v15) (V c main_v23)) := by
  show (cfg2.win 2).cut (grid2.coords t) ((dat2 V q c).after 2 t) = _
  rw [after2_2]
  obtain ⟨-, -, -, -, e4, e5⟩ := index_facts2 t
  funext y
  show out0_2 (F := Ideal) (iblk2 V c 0 t) (iblk2 V c 1 t) y = G0 (V c main_v15) (V c main_v23) (((cfg2.win 2).blk t).view.emb y)
  refine out2_2_point V c t y _ ?_ ?_
  · show win2_2.index t (0 : Fin 2) * 400 + 1 * (y 0).val = 400 * t.val + (y 0).val
    rw [e4]; omega
  · show win2_2.index t (1 : Fin 2) * 32 + 1 * (y 1).val = (y 1).val
    rw [e5]; omega

theorem mem_blk2 (t : Fin cfg2.N) (i : S10000x32.Idx) :
    i ∈ ((cfg2.win 2).blk t).view.set ↔ ∀ a : Fin 2, win2_2.index t a * S400x32.size a ≤ (i a).val ∧ (i a).val < win2_2.index t a * S400x32.size a + S400x32.size a := by
  show i ∈ ((View.whole main_v24).slice (win2_2.rect t)).set ↔ _
  rw [View.set_slice_whole, Rect.mem_set_unit]
  exact Iff.rfl

/-- The 25 row blocks tile the output array: row `r` lies in the block of point `r / 400`, which writes back. -/
theorem cover2 (i : S10000x32.Idx) :
    ∃ t : Fin cfg2.N, (cfg2.win 2).flush t = true ∧ i ∈ ((cfg2.win 2).blk t).view.set := by
  have h0 : (i 0).val < 10000 := idx2_lt0 i
  have h1 : (i 1).val < 32 := idx2_lt1 i
  have hN : cfg2.N = 25 := N_2
  have ht : (i 0).val / 400 < cfg2.N := by rw [hN]; omega
  obtain ⟨-, -, -, -, e4, e5⟩ := index_facts2 ⟨(i 0).val / 400, ht⟩
  refine ⟨⟨(i 0).val / 400, ht⟩, flush2_2 _, ?_⟩
  rw [mem_blk2]
  intro a
  match a with
  | ⟨0, _⟩ =>
    show win2_2.index ⟨(i 0).val / 400, ht⟩ (0 : Fin 2) * 400 ≤ (i 0).val ∧ (i 0).val < win2_2.index ⟨(i 0).val / 400, ht⟩ (0 : Fin 2) * 400 + 400
    rw [e4]; show (i 0).val / 400 * 400 ≤ (i 0).val ∧ (i 0).val < (i 0).val / 400 * 400 + 400
    omega
  | ⟨1, _⟩ =>
    show win2_2.index ⟨(i 0).val / 400, ht⟩ (1 : Fin 2) * 32 ≤ (i 1).val ∧ (i 1).val < win2_2.index ⟨(i 0).val / 400, ht⟩ (1 : Fin 2) * 32 + 32
    rw [e5]; omega

theorem final2 (c : Dev nD) : (dat2 (F := Ideal) V q c).arrAt 2 cfg2.N = G0 (V c main_v15) (V c main_v23) :=
  (dat2 (F := Ideal) V q c).arrAt_eq_of_cover 2 (G0 (V c main_v15) (V c main_v23)) (fun t _ => flushed2_eq V q c t) cover2

theorem arr2_apply (c : Dev nD) (i : Fin 10000) (j : Fin 32) :
    ((dat2 (F := Ideal) V q c).arrAt 2 cfg2.N : S10000x32.Idx → EReal) (ix2 i j)
      = Spec.relu (∑ k : Fin 10000, cur2 (α := EReal) (V c main_v15) i k * cur2 (α := EReal) (V c main_v23) k j) := by
  rw [final2 V q c]
  rfl

end Cert.KernelIdeal.Reg

end
-- ==== Proof.KiValue3.lean ====
import proofs.«403073_j42855183679829_3_alg».proof.Proof.KiRegion3
import proofs.«403073_j42855183679829_3_alg».proof.Proof.KiValue0

set_option maxRecDepth 16384

noncomputable section

namespace Cert.KernelIdeal.Reg

open Cert.KernelIdeal Cert.KernelIdeal.Gen Cert.Cur
open Idealize.ShloMosaic Idealize.ShloMosaic.TcCoe Idealize.ShloMosaic.ValueIdx
open Idealize.SL Idealize.SL.RA
open Idealize.ShloMosaic.Pipeline (Dat)
open scoped BigOperators

theorem index_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- The first window's block at point `t` is rows `400·t … 400·t + 399` of its array. -/
theorem iblk3_0_apply (c : Dev nD) (t : Fin cfg3.N) (p : Fin 400) (k : Fin 10000) (r : Fin 10000) (hr : r.val = 400 * t.val + p.val) :
    (iblk3 V c 0 t : Vec Ideal S400x10000 .bf16) (ix2 p k) = (V c main_v15 : S10000x10000.Idx → EReal) (ix2 r k) := by
  obtain ⟨e0, e1, -⟩ := index_facts3 t
  unfold iblk3
  rw [View.read_apply]
  show V c main_v15 _ = V c main_v15 _
  congr 1
  funext a
  apply Fin.ext
  match a with
  | ⟨0, _⟩ => show win3_0.index t (0 : Fin 2) * 400 + 1 * p.val = r.val; rw [e0, hr]; omega
  | ⟨1, _⟩ => show win3_0.index t (1 : Fin 2) * 10000 + 1 * k.val = k.val; rw [e1]; omega

/-- The second window's block at every point is its array whole. -/
theorem iblk3_1_apply (c : Dev nD) (t : Fin cfg3.N) (k : Fin 10000) (j : Fin 32) :
    (iblk3 V c 1 t : Vec Ideal S10000x32 .bf16) (ix2 k j) = (V c main_v26 : S10000x32.Idx → EReal) (ix2 k j) := by
  obtain ⟨-, -, e2, e3, -⟩ := index_facts3 t
  unfold iblk3
  rw [View.read_apply]
  show V c main_v26 _ = V c main_v26 _
  congr 1
  funext a
  apply Fin.ext
  match a with
  | ⟨0, _⟩ => show win3_1.index t (0 : Fin 2) * 10000 + 1 * k.val = k.val; rw [e2]; omega
  | ⟨1, _⟩ => show win3_1.index t (1 : Fin 2) * 32 + 1 * j.val = j.val; rw [e3]; omega

theorem out3_2_point (c : Dev nD) (t : Fin cfg3.N) (y : S400x32.Idx) (i : S10000x32.Idx)
    (hi0 : (i 0).val = 400 * t.val + (y 0).val) (hi1 : (i 1).val = (y 1).val) :
    out0_2 (F := Ideal) (iblk3 V c 0 t) (iblk3 V c 1 t) y = G0 (V c main_v15) (V c main_v26) i := by
  rw [eq_ix2 y]
  refine (out0_2_apply _ _ (y 0) (y 1)).trans ?_
  unfold G0
  congr 1
  refine Finset.sum_congr rfl fun k _ => ?_
  rw [iblk3_0_apply V c t (y 0) k (i 0) hi0, iblk3_1_apply V c t k (y 1)]
  have hj : (i 1) = (y 1) := Fin.ext hi1
  rw [hj]

variable (q : Fin cfg3.W → PosShare TreeShare)

/-- What point `t` writes back is block `t` of the rectified product of the two arrays as the region finds them. -/
theorem flushed3_eq (c : Dev nD) (t : Fin cfg3.N) :
    (dat3 (F := Ideal) V q c).flushed 2 t = ((cfg3.win 2).blk t).view.read (Elt Ideal) (G0 (V c main_v15) (V c main_v26)) := by
  show (cfg3.win 2).cut (grid3.coords t) ((dat3 V q c).after 2 t) = _
  rw [after3_2]
  obtain ⟨-, -, -, -, e4, e5⟩ := index_facts3 t
  funext y
  show out0_2 (F := Ideal) (iblk3 V c 0 t) (iblk3 V c 1 t) y = G0 (V c main_v15) (V c main_v26) (((cfg3.win 2).blk t).view.emb y)
  refine out3_2_point V c t y _ ?_ ?_
  · show win3_2.index t (0 : Fin 2) * 400 + 1 * (y 0).val = 400 * t.val + (y 0).val
    rw [e4]; omega
  · show win3_2.index t (1 : Fin 2) * 32 + 1 * (y 1).val = (y 1).val
    rw [e5]; omega

theorem mem_blk3 (t : Fin cfg3.N) (i : S10000x32.Idx) :
    i ∈ ((cfg3.win 2).blk t).view.set ↔ ∀ a : Fin 2, win3_2.index t a * S400x32.size a ≤ (i a).val ∧ (i a).val < win3_2.index t a * S400x32.size a + S400x32.size a := by
  show i ∈ ((View.whole main_v27).slice (win3_2.rect t)).set ↔ _
  rw [View.set_slice_whole, Rect.mem_set_unit]
  exact Iff.rfl

/-- The 25 row blocks tile the output array: row `r` lies in the block of point `r / 400`, which writes back. -/
theorem cover3 (i : S10000x32.Idx) :
    ∃ t : Fin cfg3.N, (cfg3.win 2).flush t = true ∧ i ∈ ((cfg3.win 2).blk t).view.set := by
  have h0 : (i 0).val < 10000 := idx2_lt0 i
  have h1 : (i 1).val < 32 := idx2_lt1 i
  have hN : cfg3.N = 25 := N_3
  have ht : (i 0).val / 400 < cfg3.N := by rw [hN]; omega
  obtain ⟨-, -, -, -, e4, e5⟩ := index_facts3 ⟨(i 0).val / 400, ht⟩
  refine ⟨⟨(i 0).val / 400, ht⟩, flush3_2 _, ?_⟩
  rw [mem_blk3]
  intro a
  match a with
  | ⟨0, _⟩ =>
    show win3_2.index ⟨(i 0).val / 400, ht⟩ (0 : Fin 2) * 400 ≤ (i 0).val ∧ (i 0).val < win3_2.index ⟨(i 0).val / 400, ht⟩ (0 : Fin 2) * 400 + 400
    rw [e4]; show (i 0).val / 400 * 400 ≤ (i 0).val ∧ (i 0).val < (i 0).val / 400 * 400 + 400
    omega
  | ⟨1, _⟩ =>
    show win3_2.index ⟨(i 0).val / 400, ht⟩ (1 : Fin 2) * 32 ≤ (i 1).val ∧ (i 1).val < win3_2.index ⟨(i 0).val / 400, ht⟩ (1 : Fin 2) * 32 + 32
    rw [e5]; omega

theorem final3 (c : Dev nD) : (dat3 (F := Ideal) V q c).arrAt 2 cfg3.N = G0 (V c main_v15) (V c main_v26) :=
  (dat3 (F := Ideal) V q c).arrAt_eq_of_cover 2 (G0 (V c main_v15) (V c main_v26)) (fun t _ => flushed3_eq V q c t) cover3

theorem arr3_apply (c : Dev nD) (i : Fin 10000) (j : Fin 32) :
    ((dat3 (F := Ideal) V q c).arrAt 2 cfg3.N : S10000x32.Idx → EReal) (ix2 i j)
      = Spec.relu (∑ k : Fin 10000, cur2 (α := EReal) (V c main_v15) i k * cur2 (α := EReal) (V c main_v26) k j) := by
  rw [final3 V q c]
  rfl

end Cert.KernelIdeal.Reg

end
-- ==== Proof.KiValue4.lean ====
import proofs.«403073_j42855183679829_3_alg».proof.Proof.KiRegion4
import proofs.«403073_j42855183679829_3_alg».proof.Proof.KiValue0

set_option maxRecDepth 16384

noncomputable section

namespace Cert.KernelIdeal.Reg

open Cert.KernelIdeal Cert.KernelIdeal.Gen Cert.Cur
open Idealize.ShloMosaic Idealize.ShloMosaic.TcCoe Idealize.ShloMosaic.ValueIdx
open Idealize.SL Idealize.SL.RA
open Idealize.ShloMosaic.Pipeline (Dat)
open scoped BigOperators

theorem index_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- The first window's block at point `t` is rows `400·t … 400·t + 399` of its array. -/
theorem iblk4_0_apply (c : Dev nD) (t : Fin cfg4.N) (p : Fin 400) (k : Fin 10000) (r : Fin 10000) (hr : r.val = 400 * t.val + p.val) :
    (iblk4 V c 0 t : Vec Ideal S400x10000 .bf16) (ix2 p k) = (V c main_v15 : S10000x10000.Idx → EReal) (ix2 r k) := by
  obtain ⟨e0, e1, -⟩ := index_facts4 t
  unfold iblk4
  rw [View.read_apply]
  show V c main_v15 _ = V c main_v15 _
  congr 1
  funext a
  apply Fin.ext
  match a with
  | ⟨0, _⟩ => show win4_0.index t (0 : Fin 2) * 400 + 1 * p.val = r.val; rw [e0, hr]; omega
  | ⟨1, _⟩ => show win4_0.index t (1 : Fin 2) * 10000 + 1 * k.val = k.val; rw [e1]; omega

/-- The second window's block at every point is its array whole. -/
theorem iblk4_1_apply (c : Dev nD) (t : Fin cfg4.N) (k : Fin 10000) (j : Fin 32) :
    (iblk4 V c 1 t : Vec Ideal S10000x32 .bf16) (ix2 k j) = (V c main_v29 : S10000x32.Idx → EReal) (ix2 k j) := by
  obtain ⟨-, -, e2, e3, -⟩ := index_facts4 t
  unfold iblk4
  rw [View.read_apply]
  show V c main_v29 _ = V c main_v29 _
  congr 1
  funext a
  apply Fin.ext
  match a with
  | ⟨0, _⟩ => show win4_1.index t (0 : Fin 2) * 10000 + 1 * k.val = k.val; rw [e2]; omega
  | ⟨1, _⟩ => show win4_1.index t (1 : Fin 2) * 32 + 1 * j.val = j.val; rw [e3]; omega

theorem out4_2_point (c : Dev nD) (t : Fin cfg4.N) (y : S400x32.Idx) (i : S10000x32.Idx)
    (hi0 : (i 0).val = 400 * t.val + (y 0).val) (hi1 : (i 1).val = (y 1).val) :
    out0_2 (F := Ideal) (iblk4 V c 0 t) (iblk4 V c 1 t) y = G0 (V c main_v15) (V c main_v29) i := by
  rw [eq_ix2 y]
  refine (out0_2_apply _ _ (y 0) (y 1)).trans ?_
  unfold G0
  congr 1
  refine Finset.sum_congr rfl fun k _ => ?_
  rw [iblk4_0_apply V c t (y 0) k (i 0) hi0, iblk4_1_apply V c t k (y 1)]
  have hj : (i 1) = (y 1) := Fin.ext hi1
  rw [hj]

variable (q : Fin cfg4.W → PosShare TreeShare)

/-- What point `t` writes back is block `t` of the rectified product of the two arrays as the region finds them. -/
theorem flushed4_eq (c : Dev nD) (t : Fin cfg4.N) :
    (dat4 (F := Ideal) V q c).flushed 2 t = ((cfg4.win 2).blk t).view.read (Elt Ideal) (G0 (V c main_v15) (V c main_v29)) := by
  show (cfg4.win 2).cut (grid4.coords t) ((dat4 V q c).after 2 t) = _
  rw [after4_2]
  obtain ⟨-, -, -, -, e4, e5⟩ := index_facts4 t
  funext y
  show out0_2 (F := Ideal) (iblk4 V c 0 t) (iblk4 V c 1 t) y = G0 (V c main_v15) (V c main_v29) (((cfg4.win 2).blk t).view.emb y)
  refine out4_2_point V c t y _ ?_ ?_
  · show win4_2.index t (0 : Fin 2) * 400 + 1 * (y 0).val = 400 * t.val + (y 0).val
    rw [e4]; omega
  · show win4_2.index t (1 : Fin 2) * 32 + 1 * (y 1).val = (y 1).val
    rw [e5]; omega

theorem mem_blk4 (t : Fin cfg4.N) (i : S10000x32.Idx) :
    i ∈ ((cfg4.win 2).blk t).view.set ↔ ∀ a : Fin 2, win4_2.index t a * S400x32.size a ≤ (i a).val ∧ (i a).val < win4_2.index t a * S400x32.size a + S400x32.size a := by
  show i ∈ ((View.whole main_v30).slice (win4_2.rect t)).set ↔ _
  rw [View.set_slice_whole, Rect.mem_set_unit]
  exact Iff.rfl

/-- The 25 row blocks tile the output array: row `r` lies in the block of point `r / 400`, which writes back. -/
theorem cover4 (i : S10000x32.Idx) :
    ∃ t : Fin cfg4.N, (cfg4.win 2).flush t = true ∧ i ∈ ((cfg4.win 2).blk t).view.set := by
  have h0 : (i 0).val < 10000 := idx2_lt0 i
  have h1 : (i 1).val < 32 := idx2_lt1 i
  have hN : cfg4.N = 25 := N_4
  have ht : (i 0).val / 400 < cfg4.N := by rw [hN]; omega
  obtain ⟨-, -, -, -, e4, e5⟩ := index_facts4 ⟨(i 0).val / 400, ht⟩
  refine ⟨⟨(i 0).val / 400, ht⟩, flush4_2 _, ?_⟩
  rw [mem_blk4]
  intro a
  match a with
  | ⟨0, _⟩ =>
    show win4_2.index ⟨(i 0).val / 400, ht⟩ (0 : Fin 2) * 400 ≤ (i 0).val ∧ (i 0).val < win4_2.index ⟨(i 0).val / 400, ht⟩ (0 : Fin 2) * 400 + 400
    rw [e4]; show (i 0).val / 400 * 400 ≤ (i 0).val ∧ (i 0).val < (i 0).val / 400 * 400 + 400
    omega
  | ⟨1, _⟩ =>
    show win4_2.index ⟨(i 0).val / 400, ht⟩ (1 : Fin 2) * 32 ≤ (i 1).val ∧ (i 1).val < win4_2.index ⟨(i 0).val / 400, ht⟩ (1 : Fin 2) * 32 + 32
    rw [e5]; omega

theorem final4 (c : Dev nD) : (dat4 (F := Ideal) V q c).arrAt 2 cfg4.N = G0 (V c main_v15) (V c main_v29) :=
  (dat4 (F := Ideal) V q c).arrAt_eq_of_cover 2 (G0 (V c main_v15) (V c main_v29)) (fun t _ => flushed4_eq V q c t) cover4

theorem arr4_apply (c : Dev nD) (i : Fin 10000) (j : Fin 32) :
    ((dat4 (F := Ideal) V q c).arrAt 2 cfg4.N : S10000x32.Idx → EReal) (ix2 i j)
      = Spec.relu (∑ k : Fin 10000, cur2 (α := EReal) (V c main_v15) i k * cur2 (α := EReal) (V c main_v29) k j) := by
  rw [final4 V q c]
  rfl

end Cert.KernelIdeal.Reg

end
-- ==== Proof.KiValue5.lean ====
import proofs.«403073_j42855183679829_3_alg».proof.Proof.KiRegion5
import proofs.«403073_j42855183679829_3_alg».proof.Proof.KiValue0

set_option maxRecDepth 16384

noncomputable section

namespace Cert.KernelIdeal.Reg

open Cert.KernelIdeal Cert.KernelIdeal.Gen Cert.Cur
open Idealize.ShloMosaic Idealize.ShloMosaic.TcCoe Idealize.ShloMosaic.ValueIdx
open Idealize.SL Idealize.SL.RA
open Idealize.ShloMosaic.Pipeline (Dat)
open scoped BigOperators

theorem index_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b))

/-- The first window's block at point `t` is rows `400·t … 400·t + 399` of its array. -/
theorem iblk5_0_apply (c : Dev nD) (t : Fin cfg5.N) (p : Fin 400) (k : Fin 10000) (r : Fin 10000) (hr : r.val = 400 * t.val + p.val) :
    (iblk5 V c 0 t : Vec Ideal S400x10000 .bf16) (ix2 p k) = (V c main_v15 : S10000x10000.Idx → EReal) (ix2 r k) := by
  obtain ⟨e0, e1, -⟩ := index_facts5 t
  unfold iblk5
  rw [View.read_apply]
  show V c main_v15 _ = V c main_v15 _
  congr 1
  funext a
  apply Fin.ext
  match a with
  | ⟨0, _⟩ => show win5_0.index t (0 : Fin 2) * 400 + 1 * p.val = r.val; rw [e0, hr]; omega
  | ⟨1, _⟩ => show win5_0.index t (1 : Fin 2) * 10000 + 1 * k.val = k.val; rw [e1]; omega

/-- The second window's block at every point is its array whole. -/
theorem iblk5_1_apply (c : Dev nD) (t : Fin cfg5.N) (k : Fin 10000) (j : Fin 32) :
    (iblk5 V c 1 t : Vec Ideal S10000x32 .bf16) (ix2 k j) = (V c main_v32 : S10000x32.Idx → EReal) (ix2 k j) := by
  obtain ⟨-, -, e2, e3, -⟩ := index_facts5 t
  unfold iblk5
  rw [View.read_apply]
  show V c main_v32 _ = V c main_v32 _
  congr 1
  funext a
  apply Fin.ext
  match a with
  | ⟨0, _⟩ => show win5_1.index t (0 : Fin 2) * 10000 + 1 * k.val = k.val; rw [e2]; omega
  | ⟨1, _⟩ => show win5_1.index t (1 : Fin 2) * 32 + 1 * j.val = j.val; rw [e3]; omega

theorem out5_2_point (c : Dev nD) (t : Fin cfg5.N) (y : S400x32.Idx) (i : S10000x32.Idx)
    (hi0 : (i 0).val = 400 * t.val + (y 0).val) (hi1 : (i 1).val = (y 1).val) :
    out0_2 (F := Ideal) (iblk5 V c 0 t) (iblk5 V c 1 t) y = G0 (V c main_v15) (V c main_v32) i := by
  rw [eq_ix2 y]
  refine (out0_2_apply _ _ (y 0) (y 1)).trans ?_
  unfold G0
  congr 1
  refine Finset.sum_congr rfl fun k _ => ?_
  rw [iblk5_0_apply V c t (y 0) k (i 0) hi0, iblk5_1_apply V c t k (y 1)]
  have hj : (i 1) = (y 1) := Fin.ext hi1
  rw [hj]

variable (q : Fin cfg5.W → PosShare TreeShare)

/-- What point `t` writes back is block `t` of the rectified product of the two arrays as the region finds them. -/
theorem flushed5_eq (c : Dev nD) (t : Fin cfg5.N) :
    (dat5 (F := Ideal) V q c).flushed 2 t = ((cfg5.win 2).blk t).view.read (Elt Ideal) (G0 (V c main_v15) (V c main_v32)) := by
  show (cfg5.win 2).cut (grid5.coords t) ((dat5 V q c).after 2 t) = _
  rw [after5_2]
  obtain ⟨-, -, -, -, e4, e5⟩ := index_facts5 t
  funext y
  show out0_2 (F := Ideal) (iblk5 V c 0 t) (iblk5 V c 1 t) y = G0 (V c main_v15) (V c main_v32) (((cfg5.win 2).blk t).view.emb y)
  refine out5_2_point V c t y _ ?_ ?_
  · show win5_2.index t (0 : Fin 2) * 400 + 1 * (y 0).val = 400 * t.val + (y 0).val
    rw [e4]; omega
  · show win5_2.index t (1 : Fin 2) * 32 + 1 * (y 1).val = (y 1).val
    rw [e5]; omega

theorem mem_blk5 (t : Fin cfg5.N) (i : S10000x32.Idx) :
    i ∈ ((cfg5.win 2).blk t).view.set ↔ ∀ a : Fin 2, win5_2.index t a * S400x32.size a ≤ (i a).val ∧ (i a).val < win5_2.index t a * S400x32.size a + S400x32.size a := by
  show i ∈ ((View.whole main_v33).slice (win5_2.rect t)).set ↔ _
  rw [View.set_slice_whole, Rect.mem_set_unit]
  exact Iff.rfl

/-- The 25 row blocks tile the output array: row `r` lies in the block of point `r / 400`, which writes back. -/
theorem cover5 (i : S10000x32.Idx) :
    ∃ t : Fin cfg5.N, (cfg5.win 2).flush t = true ∧ i ∈ ((cfg5.win 2).blk t).view.set := by
  have h0 : (i 0).val < 10000 := idx2_lt0 i
  have h1 : (i 1).val < 32 := idx2_lt1 i
  have hN : cfg5.N = 25 := N_5
  have ht : (i 0).val / 400 < cfg5.N := by rw [hN]; omega
  obtain ⟨-, -, -, -, e4, e5⟩ := index_facts5 ⟨(i 0).val / 400, ht⟩
  refine ⟨⟨(i 0).val / 400, ht⟩, flush5_2 _, ?_⟩
  rw [mem_blk5]
  intro a
  match a with
  | ⟨0, _⟩ =>
    show win5_2.index ⟨(i 0).val / 400, ht⟩ (0 : Fin 2) * 400 ≤ (i 0).val ∧ (i 0).val < win5_2.index ⟨(i 0).val / 400, ht⟩ (0 : Fin 2) * 400 + 400
    rw [e4]; show (i 0).val / 400 * 400 ≤ (i 0).val ∧ (i 0).val < (i 0).val / 400 * 400 + 400
    omega
  | ⟨1, _⟩ =>
    show win5_2.index ⟨(i 0).val / 400, ht⟩ (1 : Fin 2) * 32 ≤ (i 1).val ∧ (i 1).val < win5_2.index ⟨(i 0).val / 400, ht⟩ (1 : Fin 2) * 32 + 32
    rw [e5]; omega

theorem final5 (c : Dev nD) : (dat5 (F := Ideal) V q c).arrAt 2 cfg5.N = G0 (V c main_v15) (V c main_v32) :=
  (dat5 (F := Ideal) V q c).arrAt_eq_of_cover 2 (G0 (V c main_v15) (V c main_v32)) (fun t _ => flushed5_eq V q c t) cover5

theorem arr5_apply (c : Dev nD) (i : Fin 10000) (j : Fin 32) :
    ((dat5 (F := Ideal) V q c).arrAt 2 cfg5.N : S10000x32.Idx → EReal) (ix2 i j)
      = Spec.relu (∑ k : Fin 10000, cur2 (α := EReal) (V c main_v15) i k * cur2 (α := EReal) (V c main_v32) k j) := by
  rw [final5 V q c]
  rfl

end Cert.KernelIdeal.Reg

end
-- ==== Proof.KiValue6.lean ====
import proofs.«403073_j42855183679829_3_alg».proof.Proof.KiRegion6
import proofs.«403073_j42855183679829_3_alg».proof.Proof.Spec
import proofs.«403073_j42855183679829_3_alg».proof.Proof.Cur
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen Cert.Cur
open Idealize.ShloMosaic Idealize.ShloMosaic.TcCoe Idealize.ShloMosaic.ValueIdx
open Idealize.SL Idealize.SL.RA
open Idealize.ShloMosaic.Pipeline (Dat)
open scoped BigOperators

theorem pay6_apply (x0 : Vec Ideal S400x10000 .bf16) (x1 : Vec Ideal S10000x16 .bf16) (p : Fin 400) (j : Fin 16) :
    k6_pay1 (F := Ideal) x0 x1 (ix2 p j) = ∑ k : Fin 10000, x0 (ix2 p k) * x1 (ix2 k j) := by
  unfold k6_pay1
  simp only [shapeCast_self]
  show FloatOps.matmul (φ₁ := .bf16) (φ₂ := .bf16) dot_S400x10000_S10000x16_S400x16_1_0_0_1_n_n none x0 x1 (constant (F := Ideal) S400x16 .f32 0x00000000#32) (ix2 p j) = _
  rw [Ideal.matmul_constant_zero_apply]
  exact sum_dot2 dot_S400x10000_S10000x16_S400x16_1_0_0_1_n_n rfl rfl rfl rfl
    (fun i q => by
      unfold DotDims.lhsIdx
      rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
      rfl)
    (fun i q => by
      unfold DotDims.rhsIdx
      rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
      rfl) x0 x1 p j

theorem zero_offsets6 : (![0, 0] : Fin 2 → Nat) = fun _ => 0 := funext fun a => by fin_cases a <;> rfl

theorem out6_2_apply (x0 : Vec Ideal S400x10000 .bf16) (x1 : Vec Ideal S10000x16 .bf16) (p : Fin 400) (j : Fin 16) :
    out6_2 (F := Ideal) x0 x1 (ix2 p j) = ∑ k : Fin 10000, x0 (ix2 p k) * x1 (ix2 k j) := by
  unfold out6_2
  rw [View.canon_unit_zero zero_offsets6]
  simp only [View.ld_unit_zero (S := S400x10000) zero_offsets6, View.ld_unit_zero (S := S10000x16) zero_offsets6]
  exact pay6_apply x0 x1 p j

theorem index_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

variable (V : (c : Dev nD) → (b : Ref sig .tc) → Buf (Elt Ideal) ((c : Thread nD τ).loc b))

theorem iblk6_0_apply (c : Dev nD) (t : Fin cfg6.N) (p : Fin 400) (k : Fin 10000) (r : Fin 10000) (hr : r.val = 400 * t.val + p.val) :
    (iblk6 V c 0 t : Vec Ideal S400x10000 .bf16) (ix2 p k) = (V c main_v15 : S10000x10000.Idx → EReal) (ix2 r k) := by
  obtain ⟨e0, e1, -⟩ := index_facts6 t
  unfold iblk6
  rw [View.read_apply]
  show V c main_v15 _ = V c main_v15 _
  congr 1
  funext a
  apply Fin.ext
  match a with
  | ⟨0, _⟩ => show win6_0.index t (0 : Fin 2) * 400 + 1 * p.val = r.val; rw [e0, hr]; omega
  | ⟨1, _⟩ => show win6_0.index t (1 : Fin 2) * 10000 + 1 * k.val = k.val; rw [e1]; omega

theorem iblk6_1_apply (c : Dev nD) (t : Fin cfg6.N) (k : Fin 10000) (j : Fin 16) :
    (iblk6 V c 1 t : Vec Ideal S10000x16 .bf16) (ix2 k j) = (V c main_v35 : S10000x16.Idx → EReal) (ix2 k j) := by
  obtain ⟨-, -, e2, e3, -⟩ := index_facts6 t
  unfold iblk6
  rw [View.read_apply]
  show V c main_v35 _ = V c main_v35 _
  congr 1
  funext a
  apply Fin.ext
  match a with
  | ⟨0, _⟩ => show win6_1.index t (0 : Fin 2) * 10000 + 1 * k.val = k.val; rw [e2]; omega
  | ⟨1, _⟩ => show win6_1.index t (1 : Fin 2) * 16 + 1 * j.val = j.val; rw [e3]; omega

def G6 (a : S10000x10000.Idx → EReal) (b : S10000x16.Idx → EReal) : S10000x16.Idx → EReal :=
  fun i => ∑ k : Fin 10000, a (ix2 (i 0) k) * b (ix2 k (i 1))

theorem out6_2_point (c : Dev nD) (t : Fin cfg6.N) (y : S400x16.Idx) (i : S10000x16.Idx)
    (hi0 : (i 0).val = 400 * t.val + (y 0).val) (hi1 : (i 1).val = (y 1).val) :
    out6_2 (F := Ideal) (iblk6 V c 0 t) (iblk6 V c 1 t) y = G6 (V c main_v15) (V c main_v35) i := by
  rw [eq_ix2 y]
  refine (out6_2_apply _ _ (y 0) (y 1)).trans ?_
  unfold G6
  refine Finset.sum_congr rfl fun k _ => ?_
  rw [iblk6_0_apply V c t (y 0) k (i 0) hi0, iblk6_1_apply V c t k (y 1)]
  have hj : (i 1) = (y 1) := Fin.ext hi1
  rw [hj]

variable (q : Fin cfg6.W → PosShare TreeShare)

theorem flushed6_eq (c : Dev nD) (t : Fin cfg6.N) :
    (dat6 (F := Ideal) V q c).flushed 2 t = ((cfg6.win 2).blk t).view.read (Elt Ideal) (G6 (V c main_v15) (V c main_v35)) := by
  show (cfg6.win 2).cut (grid6.coords t) ((dat6 V q c).after 2 t) = _
  rw [after6_2]
  obtain ⟨-, -, -, -, e4, e5⟩ := index_facts6 t
  funext y
  show out6_2 (F := Ideal) (iblk6 V c 0 t) (iblk6 V c 1 t) y = G6 (V c main_v15) (V c main_v35) (((cfg6.win 2).blk t).view.emb y)
  refine out6_2_point V c t y _ ?_ ?_
  · show win6_2.index t (0 : Fin 2) * 400 + 1 * (y 0).val = 400 * t.val + (y 0).val
    rw [e4]; omega
  · show win6_2.index t (1 : Fin 2) * 16 + 1 * (y 1).val = (y 1).val
    rw [e5]; omega

theorem mem_blk6 (t : Fin cfg6.N) (i : S10000x16.Idx) :
    i ∈ ((cfg6.win 2).blk t).view.set ↔ ∀ a : Fin 2, win6_2.index t a * S400x16.size a ≤ (i a).val ∧ (i a).val < win6_2.index t a * S400x16.size a + S400x16.size a := by
  show i ∈ ((View.whole main_v36).slice (win6_2.rect t)).set ↔ _
  rw [View.set_slice_whole, Rect.mem_set_unit]
  exact Iff.rfl

theorem cover6 (i : S10000x16.Idx) :
    ∃ t : Fin cfg6.N, (cfg6.win 2).flush t = true ∧ i ∈ ((cfg6.win 2).blk t).view.set := by
  have h0 : (i 0).val < 10000 := idx2_lt0 i
  have h1 : (i 1).val < 16 := idx2_lt1 i
  have hN : cfg6.N = 25 := N_6
  have ht : (i 0).val / 400 < cfg6.N := by rw [hN]; omega
  obtain ⟨-, -, -, -, e4, e5⟩ := index_facts6 ⟨(i 0).val / 400, ht⟩
  refine ⟨⟨(i 0).val / 400, ht⟩, flush6_2 _, ?_⟩
  rw [mem_blk6]
  intro a
  match a with
  | ⟨0, _⟩ =>
    show win6_2.index ⟨(i 0).val / 400, ht⟩ (0 : Fin 2) * 400 ≤ (i 0).val ∧ (i 0).val < win6_2.index ⟨(i 0).val / 400, ht⟩ (0 : Fin 2) * 400 + 400
    rw [e4]; show (i 0).val / 400 * 400 ≤ (i 0).val ∧ (i 0).val < (i 0).val / 400 * 400 + 400
    omega
  | ⟨1, _⟩ =>
    show win6_2.index ⟨(i 0).val / 400, ht⟩ (1 : Fin 2) * 16 ≤ (i 1).val ∧ (i 1).val < win6_2.index ⟨(i 0).val / 400, ht⟩ (1 : Fin 2) * 16 + 16
    rw [e5]; omega

theorem final6 (c : Dev nD) : (dat6 (F := Ideal) V q c).arrAt 2 cfg6.N = G6 (V c main_v15) (V c main_v35) :=
  (dat6 (F := Ideal) V q c).arrAt_eq_of_cover 2 (G6 (V c main_v15) (V c main_v35)) (fun t _ => flushed6_eq V q c t) cover6

theorem arr6_apply (c : Dev nD) (i : Fin 10000) (j : Fin 16) :
    ((dat6 (F := Ideal) V q c).arrAt 2 cfg6.N : S10000x16.Idx → EReal) (ix2 i j)
      = ∑ k : Fin 10000, cur2 (α := EReal) (V c main_v15) i k * cur2 (α := EReal) (V c main_v35) k j := by
  rw [final6 V q c]
  rfl

end Cert.KernelIdeal.Reg

end
-- ==== Proof.KiValue7.lean ====
import proofs.«403073_j42855183679829_3_alg».proof.Proof.KiRegion7
import proofs.«403073_j42855183679829_3_alg».proof.Proof.Spec
import proofs.«403073_j42855183679829_3_alg».proof.Proof.Cur
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen Cert.Cur
open Idealize.ShloMosaic Idealize.ShloMosaic.TcCoe Idealize.ShloMosaic.ValueIdx Idealize.SL.Sem
open Idealize.SL Idealize.SL.RA
open Idealize.ShloMosaic.Pipeline (Dat)
open scoped BigOperators

theorem lhs7_0 (i : S400x10000.Idx) (q : dot_S400x16_S10000x16_S400x10000_1_1_0_0_n_n.contr.Idx) :
    (dot_S400x16_S10000x16_S400x10000_1_1_0_0_n_n.lhsIdx i q 0).val = (i 0).val := by
  unfold DotDims.lhsIdx
  rw [dif_neg (show ¬(0 : Fin S400x16.rank) ∈ dot_S400x16_S10000x16_S400x10000_1_1_0_0_n_n.lhsBatch by decide), dif_pos (show (0 : Fin S400x16.rank) ∈ dot_S400x16_S10000x16_S400x10000_1_1_0_0_n_n.lhsNonContracting by decide)]
  rfl

theorem lhs7_1 (i : S400x10000.Idx) (q : dot_S400x16_S10000x16_S400x10000_1_1_0_0_n_n.contr.Idx) :
    (dot_S400x16_S10000x16_S400x10000_1_1_0_0_n_n.lhsIdx i q 1).val = (q ⟨0, by decide⟩).val :=
  dot_S400x16_S10000x16_S400x10000_1_1_0_0_n_n.lhsIdx_val_of_single rfl i q

theorem rhs7_0 (i : S400x10000.Idx) (q : dot_S400x16_S10000x16_S400x10000_1_1_0_0_n_n.contr.Idx) :
    (dot_S400x16_S10000x16_S400x10000_1_1_0_0_n_n.rhsIdx i q 0).val = (i 1).val := by
  unfold DotDims.rhsIdx
  rw [dif_neg (show ¬(0 : Fin S10000x16.rank) ∈ dot_S400x16_S10000x16_S400x10000_1_1_0_0_n_n.rhsBatch by decide), dif_pos (show (0 : Fin S10000x16.rank) ∈ dot_S400x16_S10000x16_S400x10000_1_1_0_0_n_n.rhsNonContracting by decide)]
  rfl

theorem rhs7_1 (i : S400x10000.Idx) (q : dot_S400x16_S10000x16_S400x10000_1_1_0_0_n_n.contr.Idx) :
    (dot_S400x16_S10000x16_S400x10000_1_1_0_0_n_n.rhsIdx i q 1).val = (q ⟨0, by decide⟩).val :=
  dot_S400x16_S10000x16_S400x10000_1_1_0_0_n_n.rhsIdx_val_of_single rfl i q

theorem pay7_apply (x0 : Vec Ideal S400x16 .bf16) (x1 : Vec Ideal S10000x16 .bf16) (p : Fin 400) (j : Fin 10000) :
    k7_pay1 x0 x1 (ix2 p j) = ∑ k : Fin 16, x0 (ix2 p k) * x1 (ix2 j k) := by
  unfold k7_pay1
  simp only [shapeCast_self, matmul]
  rw [Ideal.matmul_constant_zero_apply, ← Equiv.sum_comp (contrEquiv1 dot_S400x16_S10000x16_S400x10000_1_1_0_0_n_n 16 rfl rfl).symm]
  refine Finset.sum_congr rfl fun k _ => ?_
  have hk := contrEquiv1_symm_val dot_S400x16_S10000x16_S400x10000_1_1_0_0_n_n 16 rfl rfl k
  have el : dot_S400x16_S10000x16_S400x10000_1_1_0_0_n_n.lhsIdx (ix2 p j) ((contrEquiv1 dot_S400x16_S10000x16_S400x10000_1_1_0_0_n_n 16 rfl rfl).symm k) = ix2 p k := funext fun a => Fin.ext (by
    match a with
    | ⟨0, _⟩ => exact lhs7_0 _ _
    | ⟨1, _⟩ => exact (lhs7_1 _ _).trans hk)
  have er : dot_S400x16_S10000x16_S400x10000_1_1_0_0_n_n.rhsIdx (ix2 p j) ((contrEquiv1 dot_S400x16_S10000x16_S400x10000_1_1_0_0_n_n 16 rfl rfl).symm k) = ix2 j k := funext fun a => Fin.ext (by
    match a with
    | ⟨0, _⟩ => exact rhs7_0 _ _
    | ⟨1, _⟩ => exact (rhs7_1 _ _).trans hk)
  rw [el, er]

theorem hz7 : (![0, 0] : Fin 2 → Nat) = fun _ => 0 := funext fun a => by fin_cases a <;> rfl

def gram7 (z : S10000x16.Idx → EReal) : S10000x10000.Idx → EReal :=
  fun i => Spec.decode (cur2 z) ⟨(i 0).val, idx2_lt0 i⟩ ⟨(i 1).val, idx2_lt1 i⟩

theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

variable (V : (c : Dev nD) → (b : Ref sig .tc) → Buf (Elt Ideal) ((c : Thread nD τ).loc b))

theorem iblk7_0_apply (c : Dev nD) (t : Fin cfg7.N) (p : Fin 400) (k : Fin 16) (r : Fin 10000) (hr : r.val = 400 * t.val + p.val) :
    (iblk7 V c 0 t : Vec Ideal S400x16 .bf16) (ix2 p k) = (V c main_v36 : S10000x16.Idx → EReal) (ix2 r k) := by
  obtain ⟨e0, e1, -, -, -, -⟩ := idx_facts7 t
  unfold iblk7
  rw [View.read_apply]
  show V c main_v36 _ = V c main_v36 _
  congr 1
  funext a
  apply Fin.ext
  match a with
  | ⟨0, _⟩ => show win7_0.index t (0 : Fin 2) * 400 + 1 * p.val = r.val; rw [e0, hr]; omega
  | ⟨1, _⟩ => show win7_0.index t (1 : Fin 2) * 16 + 1 * k.val = k.val; rw [e1]; omega

theorem iblk7_1_apply (c : Dev nD) (t : Fin cfg7.N) (j : Fin 10000) (k : Fin 16) (r : Fin 10000) (hr : r.val = j.val) :
    (iblk7 V c 1 t : Vec Ideal S10000x16 .bf16) (ix2 j k) = (V c main_v36 : S10000x16.Idx → EReal) (ix2 r k) := by
  obtain ⟨-, -, e2, e3, -, -⟩ := idx_facts7 t
  unfold iblk7
  rw [View.read_apply]
  show V c main_v36 _ = V c main_v36 _
  congr 1
  funext a
  apply Fin.ext
  match a with
  | ⟨0, _⟩ => show win7_1.index t (0 : Fin 2) * 10000 + 1 * j.val = r.val; rw [e2, hr]; omega
  | ⟨1, _⟩ => show win7_1.index t (1 : Fin 2) * 16 + 1 * k.val = k.val; rw [e3]; omega

theorem pay7_at (x0 : Vec Ideal S400x16 .bf16) (x1 : Vec Ideal S10000x16 .bf16) (y : S400x10000.Idx) :
    k7_pay1 x0 x1 y = ∑ k : Fin 16, x0 (ix2 (y 0) k) * x1 (ix2 (y 1) k) := by
  obtain ⟨p, j, rfl⟩ : ∃ (p : Fin 400) (j : Fin 10000), y = ix2 p j := ⟨y 0, y 1, eq_ix2 y⟩
  exact pay7_apply x0 x1 p j

variable (q : Fin cfg7.W → PosShare TreeShare)

theorem flushed7_eq (c : Dev nD) (t : Fin cfg7.N) :
    (dat7 (F := Ideal) V q c).flushed 2 t = ((cfg7.win 2).blk t).view.read (Elt Ideal) (gram7 (V c main_v36)) := by
  show (cfg7.win 2).cut (grid7.coords t) ((dat7 (F := Ideal) V q c).after 2 t) = _
  rw [after7_2]
  unfold out7_2
  rw [View.canon_unit_zero hz7]
  simp only [View.ld_unit_zero (S := S400x16) hz7, View.ld_unit_zero (S := S10000x16) hz7]
  obtain ⟨-, -, -, -, e4, e5⟩ := idx_facts7 t
  funext y
  refine (pay7_at (iblk7 V c 0 t) (iblk7 V c 1 t) y).trans ?_
  show _ = gram7 (V c main_v36) (((cfg7.win 2).blk t).view.emb y)
  unfold gram7 Spec.decode cur2
  refine Finset.sum_congr rfl fun k _ => ?_
  refine congrArg₂ (· * ·) (iblk7_0_apply V c t (y 0) k _ ?_) (iblk7_1_apply V c t (y 1) k _ ?_)
  · show win7_2.index t (0 : Fin 2) * 400 + 1 * (y 0).val = 400 * t.val + (y 0).val; rw [e4]; omega
  · show win7_2.index t (1 : Fin 2) * 10000 + 1 * (y 1).val = (y 1).val; rw [e5]; omega

theorem cover7 (i : S10000x10000.Idx) : ∃ t : Fin cfg7.N, (cfg7.win 2).flush t = true ∧ i ∈ ((cfg7.win 2).blk t).view.set := by
  have h0 : (i 0).val < 10000 := idx2_lt0 i
  have h1 : (i 1).val < 10000 := idx2_lt1 i
  obtain ⟨t, ht⟩ : ∃ t : Fin cfg7.N, t.val = (i 0).val / 400 := ⟨⟨(i 0).val / 400, by show (i 0).val / 400 < 25; omega⟩, rfl⟩
  obtain ⟨-, -, -, -, e4, e5⟩ := idx_facts7 t
  refine ⟨t, flush7_2 t, ?_⟩
  show i ∈ ((View.whole main_v37).slice (win7_2.rect t)).set
  rw [View.set_slice_whole, Rect.mem_set_unit]
  intro a
  match a with
  | ⟨0, _⟩ => show win7_2.index t (0 : Fin 2) * 400 ≤ (i 0).val ∧ (i 0).val < win7_2.index t (0 : Fin 2) * 400 + 400; rw [e4, ht]; omega
  | ⟨1, _⟩ => show win7_2.index t (1 : Fin 2) * 10000 ≤ (i 1).val ∧ (i 1).val < win7_2.index t (1 : Fin 2) * 10000 + 10000; rw [e5]; omega

theorem arr7_eq (c : Dev nD) : (dat7 (F := Ideal) V q c).arrAt 2 cfg7.N = gram7 (V c main_v36) :=
  (dat7 (F := Ideal) V q c).arrAt_eq_of_cover 2 (gram7 (V c main_v36)) (fun t _ => flushed7_eq V q c t) cover7

theorem arr7_apply (c : Dev nD) (i j : Fin 10000) :
    ((dat7 (F := Ideal) V q c).arrAt 2 cfg7.N : S10000x10000.Idx → EReal) (ix2 i j)
      = Spec.decode (cur2 (V c main_v36 : S10000x16.Idx → EReal)) i j := by
  rw [arr7_eq]
  rfl

end Cert.KernelIdeal.Reg

end
-- ==== Proof.KiHost.lean ====
import proofs.«403073_j42855183679829_3_alg».proof.Proof.Gen.KernelIdeal.Launch
import proofs.«403073_j42855183679829_3_alg».proof.Proof.Spec
import proofs.«403073_j42855183679829_3_alg».proof.Proof.Cur
import Idealize.ShloMosaic.Lib.StableHlo.Run
import Idealize.ShloMosaic.Lib.ValueIdx
import Idealize.ShloMosaic.Lib.Pipeline.Value
import Idealize.ShloMosaic.PureOps.Ideal.Laws
import Idealize.ShloMosaic.Lib.StableHlo.Predicate

noncomputable section

namespace Cert.KernelIdeal.Host

open Cert.KernelIdeal Cert.KernelIdeal.Gen Cert.Cur Idealize.ShloMosaic Idealize.ShloMosaic.TcCoe Idealize.ShloMosaic.ValueIdx
open scoped BigOperators

theorem dot512_apply {φ₁ φ₂ : FTy} (l : S10000x512.Idx → EReal) (r : S512x32.Idx → EReal) (i : Fin 10000) (j : Fin 32) :
    (Host.dotGeneral (F := Ideal) (φ₁ := φ₁) (φ₂ := φ₂) dot_S10000x512_S512x32_S10000x32_1_0_0_1_n_n none l r : S10000x32.Idx → EReal) (ix2 i j)
      = ∑ k : Fin 512, l (ix2 i k) * r (ix2 k j) := by
  simp only [Host.dotGeneral]
  rw [Ideal.dotGeneral_apply]
  exact sum_dot2 dot_S10000x512_S512x32_S10000x32_1_0_0_1_n_n rfl rfl rfl rfl
    (fun i q => by
      unfold DotDims.lhsIdx
      rw [dif_neg (show ¬(0 : Fin S10000x512.rank) ∈ dot_S10000x512_S512x32_S10000x32_1_0_0_1_n_n.lhsBatch by decide), dif_pos (show (0 : Fin S10000x512.rank) ∈ dot_S10000x512_S512x32_S10000x32_1_0_0_1_n_n.lhsNonContracting by decide)]
      rfl)
    (fun i q => by
      unfold DotDims.rhsIdx
      rw [dif_neg (show ¬(1 : Fin S512x32.rank) ∈ dot_S10000x512_S512x32_S10000x32_1_0_0_1_n_n.rhsBatch by decide), dif_pos (show (1 : Fin S512x32.rank) ∈ dot_S10000x512_S512x32_S10000x32_1_0_0_1_n_n.rhsNonContracting by decide)]
      rfl) l r i j

theorem dot32_apply {φ₁ φ₂ : FTy} (l : S10000x32.Idx → EReal) (r : S32x32.Idx → EReal) (i : Fin 10000) (j : Fin 32) :
    (Host.dotGeneral (F := Ideal) (φ₁ := φ₁) (φ₂ := φ₂) dot_S10000x32_S32x32_S10000x32_1_0_0_1_n_n none l r : S10000x32.Idx → EReal) (ix2 i j)
      = ∑ k : Fin 32, l (ix2 i k) * r (ix2 k j) := by
  simp only [Host.dotGeneral]
  rw [Ideal.dotGeneral_apply]
  exact sum_dot2 dot_S10000x32_S32x32_S10000x32_1_0_0_1_n_n rfl rfl rfl rfl
    (fun i q => by
      unfold DotDims.lhsIdx
      rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
      rfl)
    (fun i q => by
      unfold DotDims.rhsIdx
      rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
      rfl) l r i j

theorem dot32x16_apply {φ₁ φ₂ : FTy} (l : S10000x32.Idx → EReal) (r : S32x16.Idx → EReal) (i : Fin 10000) (j : Fin 16) :
    (Host.dotGeneral (F := Ideal) (φ₁ := φ₁) (φ₂ := φ₂) dot_S10000x32_S32x16_S10000x16_1_0_0_1_n_n none l r : S10000x16.Idx → EReal) (ix2 i j)
      = ∑ k : Fin 32, l (ix2 i k) * r (ix2 k j) := by
  simp only [Host.dotGeneral]
  rw [Ideal.dotGeneral_apply]
  exact sum_dot2 dot_S10000x32_S32x16_S10000x16_1_0_0_1_n_n rfl rfl rfl rfl
    (fun i q => by
      unfold DotDims.lhsIdx
      rw [dif_neg (show ¬(0 : Fin S10000x32.rank) ∈ dot_S10000x32_S32x16_S10000x16_1_0_0_1_n_n.lhsBatch by decide), dif_pos (show (0 : Fin S10000x32.rank) ∈ dot_S10000x32_S32x16_S10000x16_1_0_0_1_n_n.lhsNonContracting by decide)]
      rfl)
    (fun i q => by
      unfold DotDims.rhsIdx
      rw [dif_neg (show ¬(1 : Fin S32x16.rank) ∈ dot_S10000x32_S32x16_S10000x16_1_0_0_1_n_n.rhsBatch by decide), dif_pos (show (1 : Fin S32x16.rank) ∈ dot_S10000x32_S32x16_S10000x16_1_0_0_1_n_n.rhsNonContracting by decide)]
      rfl) l r i j

-- Each host stretch before a region computes the projection `h · W` that the region multiplies by the adjacency.
theorem hostOps0_v17 (W : Valuation τ sig (Elt Ideal)) (i : Fin 10000) (j : Fin 32) :
    cur2 (StableHlo.after (hostOps0 (F := Ideal)) W main_v17 : S10000x32.Idx → EReal) i j
      = Spec.proj (cur2 (W main_arg0 : S10000x512.Idx → EReal)) (cur2 (W main_arg4 : S512x32.Idx → EReal)) i j := by
  have e : (StableHlo.after (hostOps0 (F := Ideal)) W main_v17 : S10000x32.Idx → EReal)
      = truncf .bf16 (Host.dotGeneral (F := Ideal) (φ₁ := .f32) (φ₂ := .f32) dot_S10000x512_S512x32_S10000x32_1_0_0_1_n_n none (W main_arg0) (W main_arg4)) bitsLt_bf16_f32 := by
    after_results
  unfold cur2
  rw [e]
  exact dot512_apply (φ₁ := .f32) (φ₂ := .f32) _ _ i j

theorem hostOps1_v20 (W : Valuation τ sig (Elt Ideal)) (i : Fin 10000) (j : Fin 32) :
    cur2 (StableHlo.after (hostOps1 (F := Ideal)) W main_v20 : S10000x32.Idx → EReal) i j
      = Spec.proj (cur2 (W main_v18 : S10000x32.Idx → EReal)) (cur2 (W main_arg5 : S32x32.Idx → EReal)) i j := by
  have e : (StableHlo.after (hostOps1 (F := Ideal)) W main_v20 : S10000x32.Idx → EReal)
      = truncf .bf16 (Host.dotGeneral (F := Ideal) (φ₁ := .bf16) (φ₂ := .f32) dot_S10000x32_S32x32_S10000x32_1_0_0_1_n_n none (W main_v18) (W main_arg5)) bitsLt_bf16_f32 := by
    after_results
  unfold cur2
  rw [e]
  exact dot32_apply (φ₁ := .bf16) (φ₂ := .f32) _ _ i j

theorem hostOps2_v23 (W : Valuation τ sig (Elt Ideal)) (i : Fin 10000) (j : Fin 32) :
    cur2 (StableHlo.after (hostOps2 (F := Ideal)) W main_v23 : S10000x32.Idx → EReal) i j
      = Spec.proj (cur2 (W main_v21 : S10000x32.Idx → EReal)) (cur2 (W main_arg6 : S32x32.Idx → EReal)) i j := by
  have e : (StableHlo.after (hostOps2 (F := Ideal)) W main_v23 : S10000x32.Idx → EReal)
      = truncf .bf16 (Host.dotGeneral (F := Ideal) (φ₁ := .bf16) (φ₂ := .f32) dot_S10000x32_S32x32_S10000x32_1_0_0_1_n_n none (W main_v21) (W main_arg6)) bitsLt_bf16_f32 := by
    after_results
  unfold cur2
  rw [e]
  exact dot32_apply (φ₁ := .bf16) (φ₂ := .f32) _ _ i j

theorem hostOps3_v26 (W : Valuation τ sig (Elt Ideal)) (i : Fin 10000) (j : Fin 32) :
    cur2 (StableHlo.after (hostOps3 (F := Ideal)) W main_v26 : S10000x32.Idx → EReal) i j
      = Spec.proj (cur2 (W main_v24 : S10000x32.Idx → EReal)) (cur2 (W main_arg7 : S32x32.Idx → EReal)) i j := by
  have e : (StableHlo.after (hostOps3 (F := Ideal)) W main_v26 : S10000x32.Idx → EReal)
      = truncf .bf16 (Host.dotGeneral (F := Ideal) (φ₁ := .bf16) (φ₂ := .f32) dot_S10000x32_S32x32_S10000x32_1_0_0_1_n_n none (W main_v24) (W main_arg7)) bitsLt_bf16_f32 := by
    after_results
  unfold cur2
  rw [e]
  exact dot32_apply (φ₁ := .bf16) (φ₂ := .f32) _ _ i j

theorem hostOps4_v29 (W : Valuation τ sig (Elt Ideal)) (i : Fin 10000) (j : Fin 32) :
    cur2 (StableHlo.after (hostOps4 (F := Ideal)) W main_v29 : S10000x32.Idx → EReal) i j
      = Spec.proj (cur2 (W main_v27 : S10000x32.Idx → EReal)) (cur2 (W main_arg8 : S32x32.Idx → EReal)) i j := by
  have e : (StableHlo.after (hostOps4 (F := Ideal)) W main_v29 : S10000x32.Idx → EReal)
      = truncf .bf16 (Host.dotGeneral (F := Ideal) (φ₁ := .bf16) (φ₂ := .f32) dot_S10000x32_S32x32_S10000x32_1_0_0_1_n_n none (W main_v27) (W main_arg8)) bitsLt_bf16_f32 := by
    after_results
  unfold cur2
  rw [e]
  exact dot32_apply (φ₁ := .bf16) (φ₂ := .f32) _ _ i j

theorem hostOps5_v32 (W : Valuation τ sig (Elt Ideal)) (i : Fin 10000) (j : Fin 32) :
    cur2 (StableHlo.after (hostOps5 (F := Ideal)) W main_v32 : S10000x32.Idx → EReal) i j
      = Spec.proj (cur2 (W main_v30 : S10000x32.Idx → EReal)) (cur2 (W main_arg9 : S32x32.Idx → EReal)) i j := by
  have e : (StableHlo.after (hostOps5 (F := Ideal)) W main_v32 : S10000x32.Idx → EReal)
      = truncf .bf16 (Host.dotGeneral (F := Ideal) (φ₁ := .bf16) (φ₂ := .f32) dot_S10000x32_S32x32_S10000x32_1_0_0_1_n_n none (W main_v30) (W main_arg9)) bitsLt_bf16_f32 := by
    after_results
  unfold cur2
  rw [e]
  exact dot32_apply (φ₁ := .bf16) (φ₂ := .f32) _ _ i j

theorem hostOps6_v35 (W : Valuation τ sig (Elt Ideal)) (i : Fin 10000) (j : Fin 16) :
    cur2 (StableHlo.after (hostOps6 (F := Ideal)) W main_v35 : S10000x16.Idx → EReal) i j
      = Spec.proj (cur2 (W main_v33 : S10000x32.Idx → EReal)) (cur2 (W main_arg10 : S32x16.Idx → EReal)) i j := by
  have e : (StableHlo.after (hostOps6 (F := Ideal)) W main_v35 : S10000x16.Idx → EReal)
      = truncf .bf16 (Host.dotGeneral (F := Ideal) (φ₁ := .bf16) (φ₂ := .f32) dot_S10000x32_S32x16_S10000x16_1_0_0_1_n_n none (W main_v33) (W main_arg10)) bitsLt_bf16_f32 := by
    after_results
  unfold cur2
  rw [e]
  exact dot32x16_apply (φ₁ := .bf16) (φ₂ := .f32) _ _ i j

theorem hostOps8_v38 (W : Valuation τ sig (Elt Ideal)) :
    (StableHlo.after (hostOps8 (F := Ideal)) W main_v38 : S100000000.Idx → EReal)
      = flat2 (cur2 (W main_v37 : S10000x10000.Idx → EReal)) := by
  have e : (StableHlo.after (hostOps8 (F := Ideal)) W main_v38 : S100000000.Idx → EReal)
      = shapeCast S100000000 (W main_v37 : S10000x10000.Idx → EReal) shapeCasts_S10000x10000_S100000000 := by
    after_results; rfl
  rw [e]
  funext f
  unfold flat2 cur2
  refine shapeCast_apply _ shapeCasts_S10000x10000_S100000000 f (ix2 (flatRow (f 0)) (flatCol (f 0))) ?_
  rw [Shape.rowMajor_val_two, Shape.rowMajor_val_one]
  show (f 0).val / 10000 * 10000 + (f 0).val % 10000 = (f 0).val
  omega

theorem window_zero (e : S320000.Idx) (a : Fin S10000x10000.rank) : scatter_S10000x10000_S320000x2_S320000_n_01_01_1.window e a = 0 := by
  unfold ScatterDims.window
  rw [dif_neg]
  revert a
  decide

theorem siIdx0 (e : Fin 320000) : scatter_S10000x10000_S320000x2_S320000_n_01_01_1.siIdx (ix1 e) ⟨0, by decide⟩ = ix2 e 0 := by
  funext b
  refine Fin.ext ?_
  match b with
  | ⟨0, _⟩ => rfl
  | ⟨1, _⟩ => rfl

theorem siIdx1 (e : Fin 320000) : scatter_S10000x10000_S320000x2_S320000_n_01_01_1.siIdx (ix1 e) ⟨1, by decide⟩ = ix2 e 1 := by
  funext b
  refine Fin.ext ?_
  match b with
  | ⟨0, _⟩ => rfl
  | ⟨1, _⟩ => rfl

theorem start0 (idx : S320000x2.Idx → BitVec 32) (e : Fin 320000) :
    scatter_S10000x10000_S320000x2_S320000_n_01_01_1.start (ix1 e) idx 0 = (idx (ix2 e 0)).toInt := by
  unfold ScatterDims.start
  rw [dif_pos (show (0 : Fin S10000x10000.rank) ∈ scatter_S10000x10000_S320000x2_S320000_n_01_01_1.scatterDimsToOperandDims by decide)]
  exact congrArg (fun q => (idx q).toInt) (siIdx0 e)

theorem start1 (idx : S320000x2.Idx → BitVec 32) (e : Fin 320000) :
    scatter_S10000x10000_S320000x2_S320000_n_01_01_1.start (ix1 e) idx 1 = (idx (ix2 e 1)).toInt := by
  unfold ScatterDims.start
  rw [dif_pos (show (1 : Fin S10000x10000.rank) ∈ scatter_S10000x10000_S320000x2_S320000_n_01_01_1.scatterDimsToOperandDims by decide)]
  exact congrArg (fun q => (idx q).toInt) (siIdx1 e)

theorem resultIdx_eq_some_iff (idx : S320000x2.Idx → BitVec 32) (e : Fin 320000) (i k : Fin 10000) :
    scatter_S10000x10000_S320000x2_S320000_n_01_01_1.resultIdx? (ix1 e) idx = some (ix2 i k)
      ↔ (idx (ix2 e 0)).toInt = (i.val : ℤ) ∧ (idx (ix2 e 1)).toInt = (k.val : ℤ) := by
  have hs0 := start0 idx e
  have hs1 := start1 idx e
  have hw0 : ((scatter_S10000x10000_S320000x2_S320000_n_01_01_1.window (ix1 e) 0 : ℕ) : ℤ) = 0 := by rw [window_zero]; rfl
  have hw1 : ((scatter_S10000x10000_S320000x2_S320000_n_01_01_1.window (ix1 e) 1 : ℕ) : ℤ) = 0 := by rw [window_zero]; rfl
  have hi := i.isLt
  have hk := k.isLt
  unfold ScatterDims.resultIdx?
  split_ifs with h
  · rw [Option.some.injEq]
    constructor
    · intro heq
      have h0 := congrArg Fin.val (congrFun heq 0)
      have h1 := congrArg Fin.val (congrFun heq 1)
      have g0 := (h 0).1
      have g1 := (h 1).1
      simp only [hs0, hs1, hw0, hw1, add_zero] at h0 h1 g0 g1
      constructor
      · have : ((idx (ix2 e 0)).toInt.toNat : ℤ) = (idx (ix2 e 0)).toInt := Int.toNat_of_nonneg g0
        rw [← this]; exact congrArg Nat.cast h0
      · have : ((idx (ix2 e 1)).toInt.toNat : ℤ) = (idx (ix2 e 1)).toInt := Int.toNat_of_nonneg g1
        rw [← this]; exact congrArg Nat.cast h1
    · rintro ⟨h0, h1⟩
      funext a
      refine Fin.ext ?_
      match a with
      | ⟨0, _⟩ =>
        show (scatter_S10000x10000_S320000x2_S320000_n_01_01_1.start (ix1 e) idx 0 + (scatter_S10000x10000_S320000x2_S320000_n_01_01_1.window (ix1 e) 0 : ℕ)).toNat = i.val
        rw [hs0, hw0, add_zero, h0]; rfl
      | ⟨1, _⟩ =>
        show (scatter_S10000x10000_S320000x2_S320000_n_01_01_1.start (ix1 e) idx 1 + (scatter_S10000x10000_S320000x2_S320000_n_01_01_1.window (ix1 e) 1 : ℕ)).toNat = k.val
        rw [hs1, hw1, add_zero, h1]; rfl
  · constructor
    · intro hh; cases hh
    · rintro ⟨h0, h1⟩
      refine absurd (fun a => ?_) h
      match a with
      | ⟨0, _⟩ =>
        show 0 ≤ scatter_S10000x10000_S320000x2_S320000_n_01_01_1.start (ix1 e) idx 0 + (scatter_S10000x10000_S320000x2_S320000_n_01_01_1.window (ix1 e) 0 : ℕ) ∧ scatter_S10000x10000_S320000x2_S320000_n_01_01_1.start (ix1 e) idx 0 + (scatter_S10000x10000_S320000x2_S320000_n_01_01_1.window (ix1 e) 0 : ℕ) < ((10000 : ℕ) : ℤ)
        rw [hs0, hw0, add_zero, h0]; omega
      | ⟨1, _⟩ =>
        show 0 ≤ scatter_S10000x10000_S320000x2_S320000_n_01_01_1.start (ix1 e) idx 1 + (scatter_S10000x10000_S320000x2_S320000_n_01_01_1.window (ix1 e) 1 : ℕ) ∧ scatter_S10000x10000_S320000x2_S320000_n_01_01_1.start (ix1 e) idx 1 + (scatter_S10000x10000_S320000x2_S320000_n_01_01_1.window (ix1 e) 1 : ℕ) < ((10000 : ℕ) : ℤ)
        rw [hs1, hw1, add_zero, h1]; omega

def norm (x : S320000.Idx → BitVec 32) : S320000.Idx → BitVec 32 :=
  select (cmpi .slt x (broadcastInDim S320000 ![] bcast_S_S320000 (constantI S_ 32 0#32)))
    (addi x (broadcastInDim S320000 ![] bcast_S_S320000 (constantI S_ 32 10000#32))) x

def idxMat (row col : S320000.Idx → BitVec 32) : S320000x2.Idx → BitVec 32 :=
  concatenate S320000x2 1
    [⟨S320000x1, broadcastInDim S320000x1 ![0] bcast_S320000_S320000x1_0 (norm row)⟩,
     ⟨S320000x1, broadcastInDim S320000x1 ![0] bcast_S320000_S320000x1_0 (norm col)⟩]
    concatenates_S320000x1_S320000x1_S320000x2_d1

theorem norm_apply (x : S320000.Idx → BitVec 32) (e : Fin 320000) (h : 0 ≤ (x (ix1 e)).toInt) :
    norm x (ix1 e) = x (ix1 e) := by
  have hz : broadcastInDim S320000 ![] bcast_S_S320000 (constantI S_ 32 0#32) (ix1 e) = 0#32 :=
    broadcastInDim_apply _ bcast_S_S320000 (constantI S_ 32 0#32) (ix1 e) ix0 (fun a => a.elim0)
  show Scalar.select (IntOp.cmpi .slt (x (ix1 e)) (broadcastInDim S320000 ![] bcast_S_S320000 (constantI S_ 32 0#32) (ix1 e))) _ _ = _
  rw [hz]
  have hc : IntOp.cmpi .slt (x (ix1 e)) 0#32 = 0#1 := by
    show BitVec.ofBool ((x (ix1 e)).slt 0#32) = 0#1
    have : (x (ix1 e)).slt 0#32 = false := by
      rw [BitVec.slt]
      simp only [decide_eq_false_iff_not, not_lt]
      exact h
    rw [this]; rfl
  rw [hc]
  exact select_zero _ _

theorem idxMat_apply0 (row col : S320000.Idx → BitVec 32) (e : Fin 320000) :
    idxMat row col (ix2 e 0) = norm row (ix1 e) := by
  unfold idxMat
  rw [concatenate_pair_apply_left (1 : Fin S320000x2.rank) _ _ concatenates_S320000x1_S320000x1_S320000x2_d1 (ix2 e 0) rfl
    (ix2 e 0 : S320000x1.Idx) (fun b => by match b with | ⟨0, _⟩ => rfl | ⟨1, _⟩ => rfl)]
  exact broadcastInDim_apply _ bcast_S320000_S320000x1_0 (norm row) (ix2 e 0 : S320000x1.Idx) (ix1 e) (fun a => match a with
    | ⟨0, _⟩ => by show e.val = if (320000 : Nat) = 1 then 0 else e.val; rw [if_neg (by decide)])

theorem idxMat_apply1 (row col : S320000.Idx → BitVec 32) (e : Fin 320000) :
    idxMat row col (ix2 e 1) = norm col (ix1 e) := by
  unfold idxMat
  rw [concatenate_pair_apply_right (1 : Fin S320000x2.rank) _ _ concatenates_S320000x1_S320000x1_S320000x2_d1 (ix2 e 1) rfl rfl
    (ix2 e 0 : S320000x1.Idx) (fun b hb => by
      match b with
      | ⟨0, _⟩ => rfl
      | ⟨1, _⟩ => exact absurd rfl hb) rfl]
  exact broadcastInDim_apply _ bcast_S320000_S320000x1_0 (norm col) (ix2 e 0 : S320000x1.Idx) (ix1 e) (fun a => match a with
    | ⟨0, _⟩ => by show e.val = if (320000 : Nat) = 1 then 0 else e.val; rw [if_neg (by decide)])

def idx1Equiv : Fin 320000 ≃ S320000.Idx where
  toFun := ix1
  invFun := fun j => j 0
  left_inv := fun _ => rfl
  right_inv := fun j => (eq_ix1 j).symm

-- Scatter-add into zeros, read at an entry, sums the values of the edges that land there.
theorem scatter_apply (idx : S320000x2.Idx → BitVec 32) (vals : S320000.Idx → EReal) (i k : Fin 10000) :
    (Host.scatterAdd (F := Ideal) (φ := .f32) scatter_S10000x10000_S320000x2_S320000_n_01_01_1
        (broadcastInDim S10000x10000 ![] bcast_S_S10000x10000 (constant (F := Ideal) S_ .f32 0x00000000#32)) idx vals : S10000x10000.Idx → EReal) (ix2 i k)
      = ∑ e : Fin 320000, if (idx (ix2 e 0)).toInt = (i.val : ℤ) ∧ (idx (ix2 e 1)).toInt = (k.val : ℤ) then vals (ix1 e) else 0 := by
  have hz : (broadcastInDim S10000x10000 ![] bcast_S_S10000x10000 (constant (F := Ideal) S_ .f32 0x00000000#32) : S10000x10000.Idx → EReal) (ix2 i k) = 0 := by
    rw [broadcastInDim_apply _ bcast_S_S10000x10000 (constant (F := Ideal) S_ .f32 0x00000000#32) (ix2 i k) ix0 (fun a => a.elim0)]
    show Ideal.ofBits .f32 0x00000000#32 = 0
    exact Ideal.ofBits_zero_f32
  show Ideal.hostScatterAdd scatter_S10000x10000_S320000x2_S320000_n_01_01_1 _ idx vals (ix2 i k) = _
  unfold Ideal.hostScatterAdd
  rw [hz, zero_add, Finset.sum_filter, ← Equiv.sum_comp idx1Equiv]
  refine Finset.sum_congr rfl fun e _ => ?_
  exact if_congr (resultIdx_eq_some_iff idx e i k) rfl rfl

-- The dense adjacency the first host stretch builds is the specification's `adj`, the edge indices being in range.
theorem hostOps0_v15 (W : Valuation τ sig (Elt Ideal))
    (hrow : ∀ e : Fin 320000, 0 ≤ (cur1 (W main_arg1 : S320000.Idx → BitVec 32) e).toInt ∧ (cur1 (W main_arg1 : S320000.Idx → BitVec 32) e).toInt < 10000)
    (hcol : ∀ e : Fin 320000, 0 ≤ (cur1 (W main_arg2 : S320000.Idx → BitVec 32) e).toInt ∧ (cur1 (W main_arg2 : S320000.Idx → BitVec 32) e).toInt < 10000)
    (i k : Fin 10000) :
    cur2 (StableHlo.after (hostOps0 (F := Ideal)) W main_v15 : S10000x10000.Idx → EReal) i k
      = Spec.adj (cur1 (W main_arg1 : S320000.Idx → BitVec 32)) (cur1 (W main_arg2 : S320000.Idx → BitVec 32))
          (cur1 (W main_arg3 : S320000.Idx → EReal)) i k := by
  have e : (StableHlo.after (hostOps0 (F := Ideal)) W main_v15 : S10000x10000.Idx → EReal)
      = truncf .bf16 (Host.scatterAdd (F := Ideal) (φ := .f32) scatter_S10000x10000_S320000x2_S320000_n_01_01_1
          (broadcastInDim S10000x10000 ![] bcast_S_S10000x10000 (constant (F := Ideal) S_ .f32 0x00000000#32))
          (idxMat (W main_arg1) (W main_arg2)) (W main_arg3)) bitsLt_bf16_f32 := by
    after_results; rfl
  unfold cur2
  rw [e]
  show (Host.scatterAdd (F := Ideal) (φ := .f32) scatter_S10000x10000_S320000x2_S320000_n_01_01_1 _ (idxMat (W main_arg1) (W main_arg2)) (W main_arg3) : S10000x10000.Idx → EReal) (ix2 i k) = _
  rw [scatter_apply]
  unfold Spec.adj cur1
  refine Finset.sum_congr rfl fun e _ => ?_
  rw [idxMat_apply0, idxMat_apply1, norm_apply _ e (hrow e).1, norm_apply _ e (hcol e).1]

end Cert.KernelIdeal.Host
-- ==== Proof.KiResult.lean ====
import proofs.«403073_j42855183679829_3_alg».proof.Proof.KiData
import proofs.«403073_j42855183679829_3_alg».proof.Proof.KiValue0
import proofs.«403073_j42855183679829_3_alg».proof.Proof.KiValue1
import proofs.«403073_j42855183679829_3_alg».proof.Proof.KiValue2
import proofs.«403073_j42855183679829_3_alg».proof.Proof.KiValue3
import proofs.«403073_j42855183679829_3_alg».proof.Proof.KiValue4
import proofs.«403073_j42855183679829_3_alg».proof.Proof.KiValue5
import proofs.«403073_j42855183679829_3_alg».proof.Proof.KiValue6
import proofs.«403073_j42855183679829_3_alg».proof.Proof.KiValue7
import proofs.«403073_j42855183679829_3_alg».proof.Proof.KiHost
import proofs.«403073_j42855183679829_3_alg».proof.Proof.Spec
import proofs.«403073_j42855183679829_3_alg».proof.Proof.Cur

set_option maxRecDepth 16384

noncomputable section

namespace Cert.KernelIdeal.Reg

open Cert.KernelIdeal Cert.KernelIdeal.Gen Cert.Cur
open Idealize.ShloMosaic Idealize.ShloMosaic.TcCoe Idealize.ShloMosaic.ValueIdx
open scoped BigOperators

variable (m : (ℓ : Loc nD τ sig) → Buf (Elt Ideal) ℓ) (outs : Outs (F := Ideal)) (c : Dev nD)

abbrev rowK : Fin 320000 → BitVec 32 := cur1 (m ((c : Thread nD τ).loc main_arg1) : S320000.Idx → BitVec 32)

abbrev colK : Fin 320000 → BitVec 32 := cur1 (m ((c : Thread nD τ).loc main_arg2) : S320000.Idx → BitVec 32)

abbrev valsK : Fin 320000 → EReal := cur1 (m ((c : Thread nD τ).loc main_arg3) : S320000.Idx → EReal)

abbrev featK : Fin 10000 → Fin 512 → EReal := cur2 (m ((c : Thread nD τ).loc main_arg0) : S10000x512.Idx → EReal)

abbrev w0K : Fin 512 → Fin 32 → EReal := cur2 (m ((c : Thread nD τ).loc main_arg4) : S512x32.Idx → EReal)
abbrev w1K : Fin 32 → Fin 32 → EReal := cur2 (m ((c : Thread nD τ).loc main_arg5) : S32x32.Idx → EReal)
abbrev w2K : Fin 32 → Fin 32 → EReal := cur2 (m ((c : Thread nD τ).loc main_arg6) : S32x32.Idx → EReal)
abbrev w3K : Fin 32 → Fin 32 → EReal := cur2 (m ((c : Thread nD τ).loc main_arg7) : S32x32.Idx → EReal)
abbrev w4K : Fin 32 → Fin 32 → EReal := cur2 (m ((c : Thread nD τ).loc main_arg8) : S32x32.Idx → EReal)
abbrev w5K : Fin 32 → Fin 32 → EReal := cur2 (m ((c : Thread nD τ).loc main_arg9) : S32x32.Idx → EReal)
abbrev w6K : Fin 32 → Fin 16 → EReal := cur2 (m ((c : Thread nD τ).loc main_arg10) : S32x16.Idx → EReal)

abbrev keep : List (Ref sig .tc) := [main_v15, main_arg0, main_arg1, main_arg2, main_arg3, main_arg4, main_arg5, main_arg6, main_arg7, main_arg8, main_arg9, main_arg10]

theorem keep2 : ∀ r ∈ keep, r ∉ ([main_v18] : List (Ref sig .tc)) := by decide
theorem keep3 : ∀ r ∈ keep, r ∉ hostOps1_W := by decide
theorem keep4 : ∀ r ∈ keep, r ∉ ([main_v21] : List (Ref sig .tc)) := by decide
theorem keep5 : ∀ r ∈ keep, r ∉ hostOps2_W := by decide
theorem keep6 : ∀ r ∈ keep, r ∉ ([main_v24] : List (Ref sig .tc)) := by decide
theorem keep7 : ∀ r ∈ keep, r ∉ hostOps3_W := by decide
theorem keep8 : ∀ r ∈ keep, r ∉ ([main_v27] : List (Ref sig .tc)) := by decide
theorem keep9 : ∀ r ∈ keep, r ∉ hostOps4_W := by decide
theorem keep10 : ∀ r ∈ keep, r ∉ ([main_v30] : List (Ref sig .tc)) := by decide
theorem keep11 : ∀ r ∈ keep, r ∉ hostOps5_W := by decide
theorem keep12 : ∀ r ∈ keep, r ∉ ([main_v33] : List (Ref sig .tc)) := by decide
theorem keep13 : ∀ r ∈ keep, r ∉ hostOps6_W := by decide

theorem V2_keep (r : Ref sig .tc) (hr : r ∈ keep) : V2 m outs c r = V1 m c r := V2_of m outs c r (keep2 r hr)
theorem V3_keep (r : Ref sig .tc) (hr : r ∈ keep) : V3 m outs c r = V1 m c r := (V3_of m outs c r (keep3 r hr)).trans (V2_keep m outs c r hr)
theorem V4_keep (r : Ref sig .tc) (hr : r ∈ keep) : V4 m outs c r = V1 m c r := (V4_of m outs c r (keep4 r hr)).trans (V3_keep m outs c r hr)
theorem V5_keep (r : Ref sig .tc) (hr : r ∈ keep) : V5 m outs c r = V1 m c r := (V5_of m outs c r (keep5 r hr)).trans (V4_keep m outs c r hr)
theorem V6_keep (r : Ref sig .tc) (hr : r ∈ keep) : V6 m outs c r = V1 m c r := (V6_of m outs c r (keep6 r hr)).trans (V5_keep m outs c r hr)
theorem V7_keep (r : Ref sig .tc) (hr : r ∈ keep) : V7 m outs c r = V1 m c r := (V7_of m outs c r (keep7 r hr)).trans (V6_keep m outs c r hr)
theorem V8_keep (r : Ref sig .tc) (hr : r ∈ keep) : V8 m outs c r = V1 m c r := (V8_of m outs c r (keep8 r hr)).trans (V7_keep m outs c r hr)
theorem V9_keep (r : Ref sig .tc) (hr : r ∈ keep) : V9 m outs c r = V1 m c r := (V9_of m outs c r (keep9 r hr)).trans (V8_keep m outs c r hr)
theorem V10_keep (r : Ref sig .tc) (hr : r ∈ keep) : V10 m outs c r = V1 m c r := (V10_of m outs c r (keep10 r hr)).trans (V9_keep m outs c r hr)
theorem V11_keep (r : Ref sig .tc) (hr : r ∈ keep) : V11 m outs c r = V1 m c r := (V11_of m outs c r (keep11 r hr)).trans (V10_keep m outs c r hr)
theorem V12_keep (r : Ref sig .tc) (hr : r ∈ keep) : V12 m outs c r = V1 m c r := (V12_of m outs c r (keep12 r hr)).trans (V11_keep m outs c r hr)
theorem V13_keep (r : Ref sig .tc) (hr : r ∈ keep) : V13 m outs c r = V1 m c r := (V13_of m outs c r (keep13 r hr)).trans (V12_keep m outs c r hr)

-- One layer: a rectified product whose left factor reads as `A` and whose right factor reads as `h · W` is the specification's step.
theorem step_of {Cin : ℕ} (A : Fin 10000 → Fin 10000 → EReal) (X : S10000x32.Idx → EReal) (a : S10000x10000.Idx → EReal) (p : S10000x32.Idx → EReal)
    (h : Fin 10000 → Fin Cin → EReal) (W : Fin Cin → Fin 32 → EReal)
    (hX : ∀ i j, X (ix2 i j) = Spec.relu (∑ k : Fin 10000, cur2 (α := EReal) a i k * cur2 (α := EReal) p k j))
    (ha : cur2 (α := EReal) a = A) (hp : ∀ k j, cur2 (α := EReal) p k j = Spec.proj h W k j) :
    cur2 (α := EReal) X = Spec.step (fun X => Spec.dmm A X) h W := by
  funext i j
  show X (ix2 i j) = Spec.relu (∑ k : Fin 10000, A i k * Spec.proj h W k j)
  rw [hX, ha]
  exact congrArg Spec.relu (Finset.sum_congr rfl fun k _ => by rw [hp])

theorem last_of {Cin : ℕ} (A : Fin 10000 → Fin 10000 → EReal) (X : S10000x16.Idx → EReal) (a : S10000x10000.Idx → EReal) (p : S10000x16.Idx → EReal)
    (h : Fin 10000 → Fin Cin → EReal) (W : Fin Cin → Fin 16 → EReal)
    (hX : ∀ i j, X (ix2 i j) = ∑ k : Fin 10000, cur2 (α := EReal) a i k * cur2 (α := EReal) p k j)
    (ha : cur2 (α := EReal) a = A) (hp : ∀ k j, cur2 (α := EReal) p k j = Spec.proj h W k j) :
    cur2 (α := EReal) X = Spec.dmm A (Spec.proj h W) := by
  funext i j
  show X (ix2 i j) = ∑ k : Fin 10000, A i k * Spec.proj h W k j
  rw [hX, ha]
  exact Finset.sum_congr rfl fun k _ => by rw [hp]

abbrev adjK : Fin 10000 → Fin 10000 → EReal := Spec.adj (rowK m c) (colK m c) (valsK m c)

abbrev h0K : Fin 10000 → Fin 32 → EReal := Spec.step (fun X => Spec.dmm (adjK m c) X) (featK m c) (w0K m c)
abbrev h1K : Fin 10000 → Fin 32 → EReal := Spec.step (fun X => Spec.dmm (adjK m c) X) (h0K m c) (w1K m c)
abbrev h2K : Fin 10000 → Fin 32 → EReal := Spec.step (fun X => Spec.dmm (adjK m c) X) (h1K m c) (w2K m c)
abbrev h3K : Fin 10000 → Fin 32 → EReal := Spec.step (fun X => Spec.dmm (adjK m c) X) (h2K m c) (w3K m c)
abbrev h4K : Fin 10000 → Fin 32 → EReal := Spec.step (fun X => Spec.dmm (adjK m c) X) (h3K m c) (w4K m c)
abbrev h5K : Fin 10000 → Fin 32 → EReal := Spec.step (fun X => Spec.dmm (adjK m c) X) (h4K m c) (w5K m c)

abbrev zK : Fin 10000 → Fin 16 → EReal := Spec.dmm (adjK m c) (Spec.proj (h5K m c) (w6K m c))

variable (hok : OutsOk m outs)
variable (hrow : ∀ e, 0 ≤ (rowK m c e).toInt ∧ (rowK m c e).toInt < 10000) (hcol : ∀ e, 0 ≤ (colK m c e).toInt ∧ (colK m c e).toInt < 10000)

include hrow hcol in

theorem adj1 : cur2 (α := EReal) (V1 m c main_v15) = adjK m c := by
  funext i k
  exact Host.hostOps0_v15 (V0 m c) hrow hcol i k

include hrow hcol in

theorem adjAt (Vj : Valuation τ sig (Elt Ideal)) (hj : Vj main_v15 = V1 m c main_v15) : cur2 (α := EReal) (Vj main_v15) = adjK m c := by
  rw [hj]; exact adj1 m c hrow hcol

-- Layer by layer, each region's output array read at coordinates is the specification's hidden state.
include hok hrow hcol in

theorem layer0 : cur2 (α := EReal) (V2 m outs c main_v18) = h0K m c :=
  step_of (adjK m c) _ (V1 m c main_v15) (V1 m c main_v17) (featK m c) (w0K m c)
    (fun i j => by
      rw [show V2 m outs c main_v18 = outs 2 main_v18 c from Function.update_self _ _ _, hok.h0 c]
      exact arr0_apply (T1 m) qF c i j)
    (adj1 m c hrow hcol)
    (fun k j => Host.hostOps0_v17 (V0 m c) k j)

include hok hrow hcol in

theorem layer1 : cur2 (α := EReal) (V4 m outs c main_v21) = h1K m c :=
  step_of (adjK m c) _ (V3 m outs c main_v15) (V3 m outs c main_v20) (h0K m c) (w1K m c)
    (fun i j => by
      rw [show V4 m outs c main_v21 = outs 4 main_v21 c from Function.update_self _ _ _, hok.h1 c]
      exact arr1_apply (T3 m outs) qF c i j)
    (adjAt m c hrow hcol _ (V3_keep m outs c main_v15 (by decide)))
    (fun k j => by
      rw [show cur2 (α := EReal) (V3 m outs c main_v20) k j = _ from Host.hostOps1_v20 (V2 m outs c) k j,
        layer0 m outs c hok hrow hcol, V2_keep m outs c main_arg5 (by decide)]
      rfl)

include hok hrow hcol in

theorem layer2 : cur2 (α := EReal) (V6 m outs c main_v24) = h2K m c :=
  step_of (adjK m c) _ (V5 m outs c main_v15) (V5 m outs c main_v23) (h1K m c) (w2K m c)
    (fun i j => by
      rw [show V6 m outs c main_v24 = outs 6 main_v24 c from Function.update_self _ _ _, hok.h2 c]
      exact arr2_apply (T5 m outs) qF c i j)
    (adjAt m c hrow hcol _ (V5_keep m outs c main_v15 (by decide)))
    (fun k j => by
      rw [show cur2 (α := EReal) (V5 m outs c main_v23) k j = _ from Host.hostOps2_v23 (V4 m outs c) k j,
        layer1 m outs c hok hrow hcol, V4_keep m outs c main_arg6 (by decide)]
      rfl)

include hok hrow hcol in

theorem layer3 : cur2 (α := EReal) (V8 m outs c main_v27) = h3K m c :=
  step_of (adjK m c) _ (V7 m outs c main_v15) (V7 m outs c main_v26) (h2K m c) (w3K m c)
    (fun i j => by
      rw [show V8 m outs c main_v27 = outs 8 main_v27 c from Function.update_self _ _ _, hok.h3 c]
      exact arr3_apply (T7 m outs) qF c i j)
    (adjAt m c hrow hcol _ (V7_keep m outs c main_v15 (by decide)))
    (fun k j => by
      rw [show cur2 (α := EReal) (V7 m outs c main_v26) k j = _ from Host.hostOps3_v26 (V6 m outs c) k j,
        layer2 m outs c hok hrow hcol, V6_keep m outs c main_arg7 (by decide)]
      rfl)

include hok hrow hcol in

theorem layer4 : cur2 (α := EReal) (V10 m outs c main_v30) = h4K m c :=
  step_of (adjK m c) _ (V9 m outs c main_v15) (V9 m outs c main_v29) (h3K m c) (w4K m c)
    (fun i j => by
      rw [show V10 m outs c main_v30 = outs 10 main_v30 c from Function.update_self _ _ _, hok.h4 c]
      exact arr4_apply (T9 m outs) qF c i j)
    (adjAt m c hrow hcol _ (V9_keep m outs c main_v15 (by decide)))
    (fun k j => by
      rw [show cur2 (α := EReal) (V9 m outs c main_v29) k j = _ from Host.hostOps4_v29 (V8 m outs c) k j,
        layer3 m outs c hok hrow hcol, V8_keep m outs c main_arg8 (by decide)]
      rfl)

include hok hrow hcol in

theorem layer5 : cur2 (α := EReal) (V12 m outs c main_v33) = h5K m c :=
  step_of (adjK m c) _ (V11 m outs c main_v15) (V11 m outs c main_v32) (h4K m c) (w5K m c)
    (fun i j => by
      rw [show V12 m outs c main_v33 = outs 12 main_v33 c from Function.update_self _ _ _, hok.h5 c]
      exact arr5_apply (T11 m outs) qF c i j)
    (adjAt m c hrow hcol _ (V11_keep m outs c main_v15 (by decide)))
    (fun k j => by
      rw [show cur2 (α := EReal) (V11 m outs c main_v32) k j = _ from Host.hostOps5_v32 (V10 m outs c) k j,
        layer4 m outs c hok hrow hcol, V10_keep m outs c main_arg9 (by decide)]
      rfl)

include hok hrow hcol in

theorem layer6 : cur2 (α := EReal) (V14 m outs c main_v36) = zK m c :=
  last_of (adjK m c) _ (V13 m outs c main_v15) (V13 m outs c main_v35) (h5K m c) (w6K m c)
    (fun i j => by
      rw [show V14 m outs c main_v36 = outs 14 main_v36 c from Function.update_self _ _ _, hok.h6 c]
      exact arr6_apply (T13 m outs) qF c i j)
    (adjAt m c hrow hcol _ (V13_keep m outs c main_v15 (by decide)))
    (fun k j => by
      rw [show cur2 (α := EReal) (V13 m outs c main_v35) k j = _ from Host.hostOps6_v35 (V12 m outs c) k j,
        layer5 m outs c hok hrow hcol, V12_keep m outs c main_arg10 (by decide)]
      rfl)

include hok hrow hcol in

theorem layer7 : cur2 (α := EReal) (V15 m outs c main_v37) = Spec.decode (zK m c) := by
  funext i j
  show (V15 m outs c main_v37 : S10000x10000.Idx → EReal) (ix2 i j) = _
  rw [show V15 m outs c main_v37 = outs 15 main_v37 c from Function.update_self _ _ _, hok.h7 c,
    arr7_apply (T14 m outs) q7 c i j]
  show Spec.decode (cur2 (α := EReal) (V14 m outs c main_v36)) i j = _
  rw [layer6 m outs c hok hrow hcol]

-- The result buffer is the dense specification, flattened row by row.
theorem result_eq (m : (ℓ : Loc nD τ sig) → Buf (Elt Ideal) ℓ) (outs : Outs (F := Ideal)) (hok : OutsOk m outs) (c : Dev nD)
    (hrow : ∀ e, 0 ≤ (rowK m c e).toInt ∧ (rowK m c e).toInt < 10000) (hcol : ∀ e, 0 ≤ (colK m c e).toInt ∧ (colK m c e).toInt < 10000) :
    (V16 m outs c main_v38 : S100000000.Idx → EReal)
      = flat2 (Spec.denseResult (rowK m c) (colK m c) (valsK m c) (featK m c) (w0K m c) (w1K m c) (w2K m c) (w3K m c) (w4K m c) (w5K m c) (w6K m c)) := by
  rw [show (V16 m outs c main_v38 : S100000000.Idx → EReal) = _ from Host.hostOps8_v38 (V15 m outs c), layer7 m outs c hok hrow hcol]
  rfl

end Cert.KernelIdeal.Reg

end
-- ==== Proof.RefValue.lean ====
import proofs.«403073_j42855183679829_3_alg».proof.Proof.Gen.ReferenceIdeal.Run
import proofs.«403073_j42855183679829_3_alg».proof.Proof.Gen.ReferenceIdeal.Read
import proofs.«403073_j42855183679829_3_alg».proof.Proof.Spec
import proofs.«403073_j42855183679829_3_alg».proof.Proof.Cur
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.Cur Idealize.ShloMosaic Idealize.ShloMosaic.ValueIdx
open scoped BigOperators

section Rows
variable {α : Type} {C : ℕ}

abbrev rowsGather (C : ℕ)
    (wf : GatherDims.WF ⟨2, ![10000, C]⟩ ⟨2, ![320000, 1]⟩ ⟨2, ![320000, C]⟩ [1] [0] [] [0] [] 1 ![1, C]) :
    GatherDims ⟨2, ![10000, C]⟩ ⟨2, ![320000, 1]⟩ ⟨2, ![320000, C]⟩ where
  offsetDims := [1]
  collapsedSliceDims := [0]
  operandBatchingDims := []
  startIndicesBatchingDims := []
  startIndexMap := [0]
  indexVectorDim := 1
  sliceSizes := ![1, C]
  wf := wf

-- Gathering whole rows by a column of indices reads row `node idx[e]`.
theorem gather_rows_apply
    (wf : GatherDims.WF ⟨2, ![10000, C]⟩ ⟨2, ![320000, 1]⟩ ⟨2, ![320000, C]⟩ [1] [0] [] [0] [] 1 ![1, C])
    (x : (⟨2, ![10000, C]⟩ : Shape).Idx → α) (idx : IVec ⟨2, ![320000, 1]⟩ 32) (e : Fin 320000) (j : Fin C) :
    Host.gather (rowsGather C wf) x idx (ix2 e j)
      = x (ix2 (Spec.node (idx (ix2 e 0))) j) := by
  unfold Host.gather
  congr 1
  have h0 : ((rowsGather C wf).operandIdx (ix2 e j) idx 0).val = min (idx (ix2 e 0)).toInt.toNat (10000 - 1) := by
    show (rowsGather C wf).start (ix2 e j) idx 0 + (rowsGather C wf).batchCoord (ix2 e j) 0 + (rowsGather C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather C wf).startIndexMap from List.mem_singleton.mpr rfl)]
    have hsi : (rowsGather C wf).siIdx (ix2 e j) ⟨List.idxOf (0 : Fin 2) (rowsGather C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : ((rowsGather C wf).operandIdx (ix2 e j) idx 1).val = j.val := by
    show (rowsGather C wf).start (ix2 e j) idx 1 + (rowsGather C wf).batchCoord (ix2 e j) 1 + (rowsGather C wf).offCoord (ix2 e j) 1 = _
    rw [GatherDims.batchCoord_eq_zero _ _ _ List.not_mem_nil]
    unfold GatherDims.start
    rw [dif_neg (show ¬ (1 : Fin 2) ∈ (rowsGather C wf).startIndexMap from (by decide : ¬ (1 : Fin 2) ∈ ([0] : List (Fin 2))))]
    unfold GatherDims.offCoord
    rw [dif_pos (show (1 : Fin 2) ∈ (rowsGather C wf).sKept from (by decide : (1 : Fin 2) ∈ ([1] : List (Fin 2))))]
    simp only [Nat.zero_add]
    rfl
  funext a
  refine Fin.ext ?_
  match a with
  | ⟨0, _⟩ => exact h0
  | ⟨1, _⟩ => exact h1

abbrev rowsScatter (C : ℕ)
    (wf : ScatterDims.WF ⟨2, ![10000, C]⟩ ⟨2, ![320000, 1]⟩ ⟨2, ![320000, C]⟩ [1] [0] [0] 1) :
    ScatterDims ⟨2, ![10000, C]⟩ ⟨2, ![320000, 1]⟩ ⟨2, ![320000, C]⟩ where
  updateWindowDims := [1]
  insertedWindowDims := [0]
  scatterDimsToOperandDims := [0]
  indexVectorDim := 1
  wf := wf

section
variable (wf : ScatterDims.WF ⟨2, ![10000, C]⟩ ⟨2, ![320000, 1]⟩ ⟨2, ![320000, C]⟩ [1] [0] [0] 1)
  (idx : IVec ⟨2, ![320000, 1]⟩ 32) (e : Fin 320000) (j' : Fin C)

theorem rowsScatter_start0 : (rowsScatter C wf).start (ix2 e j') idx 0 = (idx (ix2 e 0)).toInt := by
  unfold ScatterDims.start
  rw [dif_pos (show (0 : Fin 2) ∈ (rowsScatter C wf).scatterDimsToOperandDims from List.mem_singleton.mpr rfl)]
  have hsi : (rowsScatter C wf).siIdx (ix2 e j') ⟨List.idxOf (0 : Fin 2) (rowsScatter C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem rowsScatter_start1 : (rowsScatter C wf).start (ix2 e j') idx 1 = 0 := by
  unfold ScatterDims.start
  rw [dif_neg (show ¬ (1 : Fin 2) ∈ (rowsScatter C wf).scatterDimsToOperandDims from
    (by decide : ¬ (1 : Fin 2) ∈ ([0] : List (Fin 2))))]

theorem rowsScatter_window0 : (rowsScatter C wf).window (ix2 e j') 0 = 0 := by
  unfold ScatterDims.window
  rw [dif_neg (show ¬ (0 : Fin 2) ∈ (rowsScatter C wf).sKept from (by decide : ¬ (0 : Fin 2) ∈ ([1] : List (Fin 2))))]

theorem rowsScatter_window1 : (rowsScatter C wf).window (ix2 e j') 1 = j'.val := by
  unfold ScatterDims.window
  rw [dif_pos (show (1 : Fin 2) ∈ (rowsScatter C wf).sKept from (by decide : (1 : Fin 2) ∈ ([1] : List (Fin 2))))]
  rfl

theorem rowsScatter_resultIdx (i : Fin 10000) (j : Fin C) :
    (rowsScatter C wf).resultIdx? (ix2 e j') idx = some (ix2 i j)
      ↔ ((idx (ix2 e 0)).toInt = (i.val : ℤ) ∧ j' = j) := by
  have s0 := rowsScatter_start0 wf idx e j'
  have s1 := rowsScatter_start1 wf idx e j'
  have w0 := rowsScatter_window0 wf e j'
  have w1 := rowsScatter_window1 wf e j'
  unfold ScatterDims.resultIdx?
  constructor
  · intro h
    split at h
    · rename_i hall
      have hf := Option.some.inj h
      have h0 : ((rowsScatter C wf).start (ix2 e j') idx 0 + ((rowsScatter C wf).window (ix2 e j') 0 : ℤ)).toNat = i.val :=
        congrArg (fun f => (f 0).val) hf
      have h1 : ((rowsScatter C wf).start (ix2 e j') idx 1 + ((rowsScatter C wf).window (ix2 e j') 1 : ℤ)).toNat = j.val :=
        congrArg (fun f => (f 1).val) hf
      have a0 := (hall 0).1
      rw [s0, w0] at h0 a0
      rw [s1, w1] at h1
      refine ⟨by omega, Fin.ext (by omega)⟩
    · exact absurd h (by simp)
  · rintro ⟨hr, rfl⟩
    have hall : ∀ a, 0 ≤ (rowsScatter C wf).start (ix2 e j') idx a + ((rowsScatter C wf).window (ix2 e j') a : ℤ)
        ∧ (rowsScatter C wf).start (ix2 e j') idx a + ((rowsScatter C wf).window (ix2 e j') a : ℤ) < ((⟨2, ![10000, C]⟩ : Shape).size a : ℤ) := by
      intro a
      match a with
      | ⟨0, _⟩ =>
        show 0 ≤ (rowsScatter C wf).start (ix2 e j') idx 0 + ((rowsScatter C wf).window (ix2 e j') 0 : ℤ)
          ∧ (rowsScatter C wf).start (ix2 e j') idx 0 + ((rowsScatter C wf).window (ix2 e j') 0 : ℤ) < ((10000 : ℕ) : ℤ)
        rw [s0, w0, hr]; have := i.isLt; omega
      | ⟨1, _⟩ =>
        show 0 ≤ (rowsScatter C wf).start (ix2 e j') idx 1 + ((rowsScatter C wf).window (ix2 e j') 1 : ℤ)
          ∧ (rowsScatter C wf).start (ix2 e j') idx 1 + ((rowsScatter C wf).window (ix2 e j') 1 : ℤ) < ((C : ℕ) : ℤ)
        rw [s1, w1]; have := j'.isLt; omega
    rw [dif_pos hall]
    congr 1
    funext a
    refine Fin.ext ?_
    match a with
    | ⟨0, _⟩ =>
      show ((rowsScatter C wf).start (ix2 e j') idx 0 + ((rowsScatter C wf).window (ix2 e j') 0 : ℤ)).toNat = i.val
      rw [s0, w0, hr]; omega
    | ⟨1, _⟩ =>
      show ((rowsScatter C wf).start (ix2 e j') idx 1 + ((rowsScatter C wf).window (ix2 e j') 1 : ℤ)).toNat = j'.val
      rw [s1, w1]; omega

end

end Rows

section Sum
variable {C : ℕ}

-- Scatter-adding rows, read at an entry, adds the rows of the edges whose index is that row.
theorem scatter_rows_apply
    (wf : ScatterDims.WF ⟨2, ![10000, C]⟩ ⟨2, ![320000, 1]⟩ ⟨2, ![320000, C]⟩ [1] [0] [0] 1)
    (x : (⟨2, ![10000, C]⟩ : Shape).Idx → EReal) (idx : IVec ⟨2, ![320000, 1]⟩ 32)
    (upd : (⟨2, ![320000, C]⟩ : Shape).Idx → EReal) (i : Fin 10000) (j : Fin C) :
    Ideal.hostScatterAdd (rowsScatter C wf) x idx upd (ix2 i j)
      = x (ix2 i j) + ∑ e : Fin 320000, if (idx (ix2 e 0)).toInt = (i.val : ℤ) then upd (ix2 e j) else 0 := by
  unfold Ideal.hostScatterAdd
  refine congrArg (fun s => x (ix2 i j) + s) ?_
  rw [Finset.sum_filter, sum_idx2]
  refine Finset.sum_congr rfl fun e _ => ?_
  by_cases hr : (idx (ix2 e 0)).toInt = (i.val : ℤ)
  · rw [if_pos hr, Finset.sum_eq_single j]
    · rw [if_pos ((rowsScatter_resultIdx wf idx e j i j).2 ⟨hr, rfl⟩)]
    · intro j' _ hne
      rw [if_neg (fun h => hne ((rowsScatter_resultIdx wf idx e j' i j).1 h).2)]
    · intro h; exact absurd (Finset.mem_univ _) h
  · rw [if_neg hr]
    refine Finset.sum_eq_zero fun j' _ => ?_
    rw [if_neg (fun h => hr ((rowsScatter_resultIdx wf idx e j' i j).1 h).1)]

-- Gather, scale, scatter-add is the specification's sparse product.
theorem spmm_rows
    (wfg : GatherDims.WF ⟨2, ![10000, C]⟩ ⟨2, ![320000, 1]⟩ ⟨2, ![320000, C]⟩ [1] [0] [] [0] [] 1 ![1, C])
    (wfs : ScatterDims.WF ⟨2, ![10000, C]⟩ ⟨2, ![320000, 1]⟩ ⟨2, ![320000, C]⟩ [1] [0] [0] 1)
    (X z : (⟨2, ![10000, C]⟩ : Shape).Idx → EReal) (colb rowb : IVec ⟨2, ![320000, 1]⟩ 32)
    (valb : (⟨2, ![320000, C]⟩ : Shape).Idx → EReal)
    (row col : Fin 320000 → BitVec 32) (vals : Fin 320000 → EReal) (Xc : Fin 10000 → Fin C → EReal)
    (hz : ∀ i, z i = 0) (hc : ∀ e, colb (ix2 e 0) = col e) (hr : ∀ e, rowb (ix2 e 0) = row e)
    (hv : ∀ e j, valb (ix2 e j) = vals e) (hX : ∀ c j, X (ix2 c j) = Xc c j) (i : Fin 10000) (j : Fin C) :
    Ideal.hostScatterAdd (rowsScatter C wfs) z rowb (fun u => valb u * Host.gather (rowsGather C wfg) X colb u) (ix2 i j)
      = Spec.spmm row col vals Xc i j := by
  rw [scatter_rows_apply, hz, zero_add]
  unfold Spec.spmm
  refine Finset.sum_congr rfl fun e _ => ?_
  rw [hr e, hv, gather_rows_apply, hc, hX]

end Sum

theorem colNorm_word (w : BitVec 32) (h : 0 ≤ w.toInt) :
    Scalar.select (IntOp.cmpi .slt w 0#32) (IntOp.addi w 10000#32) w = w := by
  have hc : IntOp.cmpi .slt w 0#32 = 0#1 := by
    unfold IntOp.cmpi
    have : w.slt 0#32 = false := by
      simp [BitVec.slt]; omega
    simp [this]
  rw [hc]; exact select_zero _ _

open Idealize.ShloMosaic.TcCoe Idealize.SL.Sem Idealize.ShloMosaic.StableHlo

theorem idx2_eq {n0 n1 : ℕ} (f : (⟨2, ![n0, n1]⟩ : Shape).Idx) (a : Fin n0) (b : Fin n1) (h0 : f 0 = a) (h1 : f 1 = b) :
    f = ix2 a b := by
  funext d; match d with | ⟨0, _⟩ => exact h0 | ⟨1, _⟩ => exact h1

section Inst

variable (x1 x2 : (⟨S320000, .i32⟩ : BufTy).Contents (Elt Ideal)) (x3 : (⟨S320000, .f32⟩ : BufTy).Contents (Elt Ideal))

theorem v7_at (hcol : ∀ e : Fin 320000, 0 ≤ (x2 (ix1 e)).toInt) (e : Fin 320000) :
    val_main_v7 (F := Ideal) x2 (ix2 e 0) = cur1 (x2 : S320000.Idx → BitVec 32) e := by
  rw [val_main_v7_apply, val_main_v6_apply, val_main_v3_apply, val_main_v5_apply, val_main_v2_apply, val_main_v4_apply,
    val_main_c_apply, val_main_c_0_apply]
  have hi : idx_main_v7 (ix2 e 0) = ix1 e := by funext a; match a with | ⟨0, _⟩ => rfl
  rw [hi]
  exact colNorm_word _ (hcol e)

theorem v9_at (e : Fin 320000) (j : Fin 32) : val_main_v9 (F := Ideal) x3 (ix2 e j) = cur1 (x3 : S320000.Idx → EReal) e := by
  rw [val_main_v9_apply, val_main_v1_apply]
  have hi : idx_main_v1 (idx_main_v9 (ix2 e j)) = ix1 e := by funext a; match a with | ⟨0, _⟩ => rfl
  rw [hi]; rfl

theorem v99_at (e : Fin 320000) (j : Fin 16) : val_main_v99 (F := Ideal) x3 (ix2 e j) = cur1 (x3 : S320000.Idx → EReal) e := by
  rw [val_main_v99_apply, val_main_v91_apply]
  have hi : idx_main_v91 (idx_main_v99 (ix2 e j)) = ix1 e := by funext a; match a with | ⟨0, _⟩ => rfl
  rw [hi]; rfl

theorem v11_at (i : S10000x32.Idx) : val_main_v11 (F := Ideal) i = 0 := by
  rw [val_main_v11_apply, val_main_cst_apply]
  exact Ideal.ofBits_zero_f32

theorem v101_at (i : S10000x16.Idx) : val_main_v101 (F := Ideal) i = 0 := by
  rw [val_main_v101_apply, val_main_cst_18_apply]
  exact Ideal.ofBits_zero_f32

theorem v12_at (e : Fin 320000) : val_main_v12 (F := Ideal) x1 (ix2 e 0) = cur1 (x1 : S320000.Idx → BitVec 32) e := by
  rw [val_main_v12_apply]
  have hi : idx_main_v12 (ix2 e 0) = ix1 e := by funext a; match a with | ⟨0, _⟩ => rfl
  rw [hi]; rfl

def agg32 (X : (⟨S10000x32, .f32⟩ : BufTy).Contents (Elt Ideal)) : (⟨S10000x32, .f32⟩ : BufTy).Contents (Elt Ideal) :=
  Host.scatterAdd (F := Ideal) (φ := .f32) scatter_S10000x32_S320000x1_S320000x32_1_0_0_1 (val_main_v11 (F := Ideal)) (val_main_v12 (F := Ideal) x1)
    (mulf (F := Ideal) (φ := .f32) (val_main_v9 (F := Ideal) x3) (Host.gather gather_S10000x32_S320000x1_S320000x32_1_0_n_n_0_1_132 X (val_main_v7 (F := Ideal) x2)))

theorem agg32_eq (X : (⟨S10000x32, .f32⟩ : BufTy).Contents (Elt Ideal)) :
    agg32 x1 x2 x3 X = Ideal.hostScatterAdd (rowsScatter 32 scatter_S10000x32_S320000x1_S320000x32_1_0_0_1_wf)
      (val_main_v11 (F := Ideal)) (val_main_v12 (F := Ideal) x1)
      (fun u => val_main_v9 (F := Ideal) x3 u
        * Host.gather (rowsGather 32 gather_S10000x32_S320000x1_S320000x32_1_0_n_n_0_1_132_wf) X (val_main_v7 (F := Ideal) x2) u) := rfl

theorem agg32_at (hcol : ∀ e : Fin 320000, 0 ≤ (x2 (ix1 e)).toInt) (X : (⟨S10000x32, .f32⟩ : BufTy).Contents (Elt Ideal))
    (Xc : Fin 10000 → Fin 32 → EReal) (hX : ∀ c j, X (ix2 c j) = Xc c j) (i : Fin 10000) (j : Fin 32) :
    agg32 x1 x2 x3 X (ix2 i j)
      = Spec.spmm (cur1 (x1 : S320000.Idx → BitVec 32)) (cur1 (x2 : S320000.Idx → BitVec 32)) (cur1 (x3 : S320000.Idx → EReal)) Xc i j := by
  rw [agg32_eq]
  exact spmm_rows (C := 32) gather_S10000x32_S320000x1_S320000x32_1_0_n_n_0_1_132_wf scatter_S10000x32_S320000x1_S320000x32_1_0_0_1_wf
    X (val_main_v11 (F := Ideal)) (val_main_v7 (F := Ideal) x2) (val_main_v12 (F := Ideal) x1) (val_main_v9 (F := Ideal) x3)
    _ _ _ Xc (v11_at) (v7_at x2 hcol) (v12_at x1) (v9_at x3) hX i j

def agg16 (X : (⟨S10000x16, .f32⟩ : BufTy).Contents (Elt Ideal)) : (⟨S10000x16, .f32⟩ : BufTy).Contents (Elt Ideal) :=
  Host.scatterAdd (F := Ideal) (φ := .f32) scatter_S10000x16_S320000x1_S320000x16_1_0_0_1 (val_main_v101 (F := Ideal)) (val_main_v12 (F := Ideal) x1)
    (mulf (F := Ideal) (φ := .f32) (val_main_v99 (F := Ideal) x3) (Host.gather gather_S10000x16_S320000x1_S320000x16_1_0_n_n_0_1_116 X (val_main_v7 (F := Ideal) x2)))

theorem agg16_eq (X : (⟨S10000x16, .f32⟩ : BufTy).Contents (Elt Ideal)) :
    agg16 x1 x2 x3 X = Ideal.hostScatterAdd (rowsScatter 16 scatter_S10000x16_S320000x1_S320000x16_1_0_0_1_wf)
      (val_main_v101 (F := Ideal)) (val_main_v12 (F := Ideal) x1)
      (fun u => val_main_v99 (F := Ideal) x3 u
        * Host.gather (rowsGather 16 gather_S10000x16_S320000x1_S320000x16_1_0_n_n_0_1_116_wf) X (val_main_v7 (F := Ideal) x2) u) := rfl

theorem agg16_at (hcol : ∀ e : Fin 320000, 0 ≤ (x2 (ix1 e)).toInt) (X : (⟨S10000x16, .f32⟩ : BufTy).Contents (Elt Ideal))
    (Xc : Fin 10000 → Fin 16 → EReal) (hX : ∀ c j, X (ix2 c j) = Xc c j) (i : Fin 10000) (j : Fin 16) :
    agg16 x1 x2 x3 X (ix2 i j)
      = Spec.spmm (cur1 (x1 : S320000.Idx → BitVec 32)) (cur1 (x2 : S320000.Idx → BitVec 32)) (cur1 (x3 : S320000.Idx → EReal)) Xc i j := by
  rw [agg16_eq]
  exact spmm_rows (C := 16) gather_S10000x16_S320000x1_S320000x16_1_0_n_n_0_1_116_wf scatter_S10000x16_S320000x1_S320000x16_1_0_0_1_wf
    X (val_main_v101 (F := Ideal)) (val_main_v7 (F := Ideal) x2) (val_main_v12 (F := Ideal) x1) (val_main_v99 (F := Ideal) x3)
    _ _ _ Xc (v101_at) (v7_at x2 hcol) (v12_at x1) (v99_at x3) hX i j

theorem proj_at {Cin Cout : ℕ} (Y : (⟨2, ![10000, Cin]⟩ : Shape).Idx → EReal) (W : (⟨2, ![Cin, Cout]⟩ : Shape).Idx → EReal)
    (V : (⟨2, ![10000, Cout]⟩ : Shape).Idx → EReal) (Yc : Fin 10000 → Fin Cin → EReal)
    (li : (⟨2, ![10000, Cout]⟩ : Shape).Idx → Fin Cin → (⟨2, ![10000, Cin]⟩ : Shape).Idx)
    (ri : (⟨2, ![10000, Cout]⟩ : Shape).Idx → Fin Cin → (⟨2, ![Cin, Cout]⟩ : Shape).Idx)
    (hli : ∀ c j k, li (ix2 c j) k = ix2 c k) (hri : ∀ c j k, ri (ix2 c j) k = ix2 k j)
    (hY : ∀ c k, Y (ix2 c k) = Yc c k)
    (hV : ∀ i, V i = ∑ k : Fin Cin, Y (li i k) * W (ri i k)) (c : Fin 10000) (j : Fin Cout) :
    V (ix2 c j) = Spec.proj Yc (cur2 W) c j := by
  rw [hV]
  unfold Spec.proj
  refine Finset.sum_congr rfl fun k _ => ?_
  rw [hli, hri, hY]
  rfl

theorem step_apply (agg : {C : ℕ} → (Fin Spec.N → Fin C → EReal) → Fin Spec.N → Fin C → EReal) {Cin Cout : ℕ}
    (h : Fin Spec.N → Fin Cin → EReal) (W : Fin Cin → Fin Cout → EReal) (i : Fin Spec.N) (j : Fin Cout) :
    Spec.step agg h W i j = max (agg (Spec.proj h W) i j) 0 := rfl

theorem step32_at (hcol : ∀ e : Fin 320000, 0 ≤ (x2 (ix1 e)).toInt) {Cin : ℕ}
    (Y : (⟨2, ![10000, Cin]⟩ : Shape).Idx → EReal) (W : (⟨2, ![Cin, 32]⟩ : Shape).Idx → EReal)
    (V R : (⟨S10000x32, .f32⟩ : BufTy).Contents (Elt Ideal)) (Yc : Fin 10000 → Fin Cin → EReal)
    (li : S10000x32.Idx → Fin Cin → (⟨2, ![10000, Cin]⟩ : Shape).Idx)
    (ri : S10000x32.Idx → Fin Cin → (⟨2, ![Cin, 32]⟩ : Shape).Idx)
    (hli : ∀ c j k, li (ix2 c j) k = ix2 c k) (hri : ∀ c j k, ri (ix2 c j) k = ix2 k j)
    (hY : ∀ c k, Y (ix2 c k) = Yc c k)
    (hV : ∀ i, V i = ∑ k : Fin Cin, Y (li i k) * W (ri i k))
    (hR : ∀ i, R i = max (agg32 x1 x2 x3 V i) 0) (i : Fin 10000) (j : Fin 32) :
    R (ix2 i j)
      = Spec.step (fun X => Spec.spmm (cur1 (x1 : S320000.Idx → BitVec 32)) (cur1 (x2 : S320000.Idx → BitVec 32))
          (cur1 (x3 : S320000.Idx → EReal)) X) Yc (cur2 W) i j := by
  rw [hR, agg32_at x1 x2 x3 hcol V (Spec.proj Yc (cur2 W)) (proj_at Y W V Yc li ri hli hri hY hV) i j]
  exact (step_apply _ _ _ _ _).symm

end Inst

section Main

variable (x0 : (⟨S10000x512, .f32⟩ : BufTy).Contents (Elt Ideal)) (x1 x2 : (⟨S320000, .i32⟩ : BufTy).Contents (Elt Ideal))
  (x3 : (⟨S320000, .f32⟩ : BufTy).Contents (Elt Ideal)) (x4 : (⟨S512x32, .f32⟩ : BufTy).Contents (Elt Ideal))
  (x5 x6 x7 x8 x9 : (⟨S32x32, .f32⟩ : BufTy).Contents (Elt Ideal)) (x10 : (⟨S32x16, .f32⟩ : BufTy).Contents (Elt Ideal))

local macro "relu_zero" a:ident b:ident c:ident : tactic =>
  `(tactic| (intro i; rw [$a:ident, $b:ident, $c:ident]; show max _ (Ideal.ofBits .f32 0x00000000#32) = _;
             rw [Ideal.ofBits_zero_f32]; rfl))

theorem val_eq (hcol : ∀ e : Fin 320000, 0 ≤ (x2 (ix1 e)).toInt) :
    val_main_v106 (F := Ideal) x0 x1 x2 x3 x4 x5 x6 x7 x8 x9 x10
      = flat2 (Spec.sparseResult (cur1 (x1 : S320000.Idx → BitVec 32)) (cur1 (x2 : S320000.Idx → BitVec 32))
          (cur1 (x3 : S320000.Idx → EReal)) (cur2 (x0 : S10000x512.Idx → EReal)) (cur2 (x4 : S512x32.Idx → EReal))
          (cur2 (x5 : S32x32.Idx → EReal)) (cur2 (x6 : S32x32.Idx → EReal)) (cur2 (x7 : S32x32.Idx → EReal))
          (cur2 (x8 : S32x32.Idx → EReal)) (cur2 (x9 : S32x32.Idx → EReal)) (cur2 (x10 : S32x16.Idx → EReal))) := by
  have e14 := step32_at x1 x2 x3 hcol (Cin := 512) x0 x4 (val_main_v0 (F := Ideal) x0 x4) (val_main_v14 (F := Ideal) x0 x1 x2 x3 x4)
    (cur2 (x0 : S10000x512.Idx → EReal))
    lidx_main_v0 ridx_main_v0 (fun c j k => idx2_eq _ _ _ rfl rfl) (fun c j k => idx2_eq _ _ _ rfl rfl) (fun c k => rfl)
    (val_main_v0_apply x0 x4) (by relu_zero val_main_v14_apply val_main_call0_v0_apply val_main_call0_cst_apply)
  have e29 := step32_at x1 x2 x3 hcol (Cin := 32) (val_main_v14 (F := Ideal) x0 x1 x2 x3 x4) x5
    (val_main_v15 (F := Ideal) x0 x1 x2 x3 x4 x5) (val_main_v29 (F := Ideal) x0 x1 x2 x3 x4 x5) _
    lidx_main_v15 ridx_main_v15 (fun c j k => idx2_eq _ _ _ rfl rfl) (fun c j k => idx2_eq _ _ _ rfl rfl) e14
    (val_main_v15_apply x0 x1 x2 x3 x4 x5) (by relu_zero val_main_v29_apply val_main_call1_v0_apply val_main_call1_cst_apply)
  have e44 := step32_at x1 x2 x3 hcol (Cin := 32) (val_main_v29 (F := Ideal) x0 x1 x2 x3 x4 x5) x6
    (val_main_v30 (F := Ideal) x0 x1 x2 x3 x4 x5 x6) (val_main_v44 (F := Ideal) x0 x1 x2 x3 x4 x5 x6) _
    lidx_main_v30 ridx_main_v30 (fun c j k => idx2_eq _ _ _ rfl rfl) (fun c j k => idx2_eq _ _ _ rfl rfl) e29
    (val_main_v30_apply x0 x1 x2 x3 x4 x5 x6) (by relu_zero val_main_v44_apply val_main_call2_v0_apply val_main_call2_cst_apply)
  have e59 := step32_at x1 x2 x3 hcol (Cin := 32) (val_main_v44 (F := Ideal) x0 x1 x2 x3 x4 x5 x6) x7
    (val_main_v45 (F := Ideal) x0 x1 x2 x3 x4 x5 x6 x7) (val_main_v59 (F := Ideal) x0 x1 x2 x3 x4 x5 x6 x7) _
    lidx_main_v45 ridx_main_v45 (fun c j k => idx2_eq _ _ _ rfl rfl) (fun c j k => idx2_eq _ _ _ rfl rfl) e44
    (val_main_v45_apply x0 x1 x2 x3 x4 x5 x6 x7) (by relu_zero val_main_v59_apply val_main_call3_v0_apply val_main_call3_cst_apply)
  have e74 := step32_at x1 x2 x3 hcol (Cin := 32) (val_main_v59 (F := Ideal) x0 x1 x2 x3 x4 x5 x6 x7) x8
    (val_main_v60 (F := Ideal) x0 x1 x2 x3 x4 x5 x6 x7 x8) (val_main_v74 (F := Ideal) x0 x1 x2 x3 x4 x5 x6 x7 x8) _
    lidx_main_v60 ridx_main_v60 (fun c j k => idx2_eq _ _ _ rfl rfl) (fun c j k => idx2_eq _ _ _ rfl rfl) e59
    (val_main_v60_apply x0 x1 x2 x3 x4 x5 x6 x7 x8) (by relu_zero val_main_v74_apply val_main_call4_v0_apply val_main_call4_cst_apply)
  have e89 := step32_at x1 x2 x3 hcol (Cin := 32) (val_main_v74 (F := Ideal) x0 x1 x2 x3 x4 x5 x6 x7 x8) x9
    (val_main_v75 (F := Ideal) x0 x1 x2 x3 x4 x5 x6 x7 x8 x9) (val_main_v89 (F := Ideal) x0 x1 x2 x3 x4 x5 x6 x7 x8 x9) _
    lidx_main_v75 ridx_main_v75 (fun c j k => idx2_eq _ _ _ rfl rfl) (fun c j k => idx2_eq _ _ _ rfl rfl) e74
    (val_main_v75_apply x0 x1 x2 x3 x4 x5 x6 x7 x8 x9) (by relu_zero val_main_v89_apply val_main_call5_v0_apply val_main_call5_cst_apply)

  have h103 : val_main_v103 (F := Ideal) x0 x1 x2 x3 x4 x5 x6 x7 x8 x9 x10
      = agg16 x1 x2 x3 (val_main_v90 (F := Ideal) x0 x1 x2 x3 x4 x5 x6 x7 x8 x9 x10) := rfl
  have e103 : ∀ i j, val_main_v103 (F := Ideal) x0 x1 x2 x3 x4 x5 x6 x7 x8 x9 x10 (ix2 i j)
      = Spec.encode (fun X => Spec.spmm (cur1 (x1 : S320000.Idx → BitVec 32)) (cur1 (x2 : S320000.Idx → BitVec 32))
          (cur1 (x3 : S320000.Idx → EReal)) X) (cur2 (x0 : S10000x512.Idx → EReal)) (cur2 (x4 : S512x32.Idx → EReal))
          (cur2 (x5 : S32x32.Idx → EReal)) (cur2 (x6 : S32x32.Idx → EReal)) (cur2 (x7 : S32x32.Idx → EReal))
          (cur2 (x8 : S32x32.Idx → EReal)) (cur2 (x9 : S32x32.Idx → EReal)) (cur2 (x10 : S32x16.Idx → EReal)) i j := by
    intro i j
    rw [h103, agg16_at x1 x2 x3 hcol _ _ (proj_at (Cin := 32) (Cout := 16) (val_main_v89 (F := Ideal) x0 x1 x2 x3 x4 x5 x6 x7 x8 x9) x10
      (val_main_v90 (F := Ideal) x0 x1 x2 x3 x4 x5 x6 x7 x8 x9 x10) _ lidx_main_v90 ridx_main_v90
      (fun c j k => idx2_eq _ _ _ rfl rfl) (fun c j k => idx2_eq _ _ _ rfl rfl) e89
      (val_main_v90_apply x0 x1 x2 x3 x4 x5 x6 x7 x8 x9 x10)) i j]
    rfl

  funext f
  rw [val_main_v106_apply, val_main_v105_apply]
  show _ = Spec.decode _ (flatRow (f 0)) (flatCol (f 0))
  unfold Spec.decode
  refine Finset.sum_congr rfl fun k _ => ?_
  rw [val_main_v104_apply,
    idx2_eq (lidx_main_v105 (idx_main_v106 f) k) (flatRow (f 0)) k rfl rfl,
    idx2_eq (idx_main_v104 (ridx_main_v105 (idx_main_v106 f) k)) (flatCol (f 0)) k rfl rfl,
    e103, e103]

end Main

section Result

variable (m : (ℓ : Loc nD τ sig) → Buf (Elt Ideal) ℓ) (c : Dev nD)

abbrev rowA : Fin 320000 → BitVec 32 := cur1 (m ((c.tc : Thread nD τ).loc main_arg1) : S320000.Idx → BitVec 32)

abbrev colA : Fin 320000 → BitVec 32 := cur1 (m ((c.tc : Thread nD τ).loc main_arg2) : S320000.Idx → BitVec 32)

abbrev valsA : Fin 320000 → EReal := cur1 (m ((c.tc : Thread nD τ).loc main_arg3) : S320000.Idx → EReal)

abbrev featA : Fin 10000 → Fin 512 → EReal := cur2 (m ((c.tc : Thread nD τ).loc main_arg0) : S10000x512.Idx → EReal)

abbrev w0A : Fin 512 → Fin 32 → EReal := cur2 (m ((c.tc : Thread nD τ).loc main_arg4) : S512x32.Idx → EReal)
abbrev w1A : Fin 32 → Fin 32 → EReal := cur2 (m ((c.tc : Thread nD τ).loc main_arg5) : S32x32.Idx → EReal)
abbrev w2A : Fin 32 → Fin 32 → EReal := cur2 (m ((c.tc : Thread nD τ).loc main_arg6) : S32x32.Idx → EReal)
abbrev w3A : Fin 32 → Fin 32 → EReal := cur2 (m ((c.tc : Thread nD τ).loc main_arg7) : S32x32.Idx → EReal)
abbrev w4A : Fin 32 → Fin 32 → EReal := cur2 (m ((c.tc : Thread nD τ).loc main_arg8) : S32x32.Idx → EReal)
abbrev w5A : Fin 32 → Fin 32 → EReal := cur2 (m ((c.tc : Thread nD τ).loc main_arg9) : S32x32.Idx → EReal)
abbrev w6A : Fin 32 → Fin 16 → EReal := cur2 (m ((c.tc : Thread nD τ).loc main_arg10) : S32x16.Idx → EReal)

theorem res_eq_of_col_nonneg (hcol : ∀ e, 0 ≤ (colA m c e).toInt) :
    Cert.ReferenceIdeal.Value.res_main_v106 (F := Ideal) m c
      = flat2 (Spec.sparseResult (rowA m c) (colA m c) (valsA m c) (featA m c) (w0A m c) (w1A m c) (w2A m c) (w3A m c)
          (w4A m c) (w5A m c) (w6A m c)) := by
  rw [val_main_v106_eq]
  exact val_eq _ _ _ _ _ _ _ _ _ _ _ hcol

-- The reference's result is the sparse specification, flattened row by row.
theorem res_eq (hcol : ∀ e, 0 ≤ (colA m c e).toInt ∧ (colA m c e).toInt < 10000)
    (hrow : ∀ e, 0 ≤ (rowA m c e).toInt ∧ (rowA m c e).toInt < 10000) :
    Cert.ReferenceIdeal.Value.res_main_v106 (F := Ideal) m c
      = flat2 (Spec.sparseResult (rowA m c) (colA m c) (valsA m c) (featA m c) (w0A m c) (w1A m c) (w2A m c) (w3A m c)
          (w4A m c) (w5A m c) (w6A m c)) :=
  res_eq_of_col_nonneg m c fun e => (hcol e).1

end Result

end Cert.ReferenceIdeal.RefValue

end
-- ==== Proof.Bridge.lean ====
import proofs.«403073_j42855183679829_3_alg».proof.Proof.Spec

noncomputable section

namespace Cert.Spec

open scoped BigOperators

private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

private theorem coe_ite (p : Prop) [Decidable p] (a : ℝ) :
    ((if p then a else 0 : ℝ) : EReal) = if p then (a : EReal) else 0 := by
  split_ifs <;> rfl

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

theorem IsReal.relu {x : EReal} (hx : IsReal x) : IsReal (relu x) := by
  unfold Cert.Spec.relu
  rcases le_total x 0 with h | h
  · rw [max_eq_right h]; exact IsReal.zero
  · rw [max_eq_left h]; exact hx

theorem IsReal2.lift {A B : ℕ} {X : Fin A → Fin B → EReal} (h : IsReal2 X) :
    ∃ x : Fin A → Fin B → ℝ, ∀ a b, X a b = (x a b : EReal) := by
  choose x hx using h
  exact ⟨x, hx⟩

theorem proj_real {Cin Cout : ℕ} {h : Fin N → Fin Cin → EReal} {W : Fin Cin → Fin Cout → EReal}
    (hh : IsReal2 h) (hW : IsReal2 W) : IsReal2 (proj h W) :=
  fun c j => IsReal.sum _ _ fun k _ => (hh c k).mul (hW k j)

theorem spmm_real (row col : Fin E → BitVec 32) (vals : Fin E → EReal) (hvals : ∀ e, IsReal (vals e))
    {C : ℕ} {X : Fin N → Fin C → EReal} (hX : IsReal2 X) : IsReal2 (spmm row col vals X) := by
  intro i j
  unfold spmm
  refine IsReal.sum _ _ fun e _ => ?_
  split_ifs
  · exact (hvals e).mul (hX _ j)
  · exact IsReal.zero

private theorem node_val (w : BitVec 32) (h : 0 ≤ w.toInt ∧ w.toInt < (N : ℤ)) :
    ((node w).val : ℤ) = w.toInt := by
  have hN : (N : ℤ) = 10000 := rfl
  have h1 : w.toInt.toNat ≤ N - 1 := by
    have : N - 1 = 9999 := rfl
    omega
  show ((min w.toInt.toNat (N - 1) : ℕ) : ℤ) = w.toInt
  rw [Nat.min_eq_left h1]
  exact Int.toNat_of_nonneg h.1

private theorem col_eq_iff (w : BitVec 32) (h : 0 ≤ w.toInt ∧ w.toInt < (N : ℤ)) (c : Fin N) :
    w.toInt = (c.val : ℤ) ↔ c = node w := by
  constructor
  · intro hc
    apply Fin.ext
    have := node_val w h
    omega
  · intro hc
    rw [hc, node_val w h]

private theorem real_bridge (row col : Fin E → BitVec 32) (v : Fin E → ℝ) {C : ℕ} (x : Fin N → Fin C → ℝ)
    (hcol : ∀ e, 0 ≤ (col e).toInt ∧ (col e).toInt < (N : ℤ)) (i : Fin N) (j : Fin C) :
    (∑ c : Fin N, (∑ e : Fin E, if (row e).toInt = (i.val : ℤ) ∧ (col e).toInt = (c.val : ℤ) then v e else 0) * x c j)
      = ∑ e : Fin E, if (row e).toInt = (i.val : ℤ) then v e * x (node (col e)) j else 0 := by
  simp only [Finset.sum_mul]
  rw [Finset.sum_comm]
  refine Finset.sum_congr rfl fun e _ => ?_
  by_cases hr : (row e).toInt = (i.val : ℤ)
  · rw [if_pos hr, Finset.sum_eq_single (node (col e))]
    · rw [if_pos ⟨hr, (node_val (col e) (hcol e)).symm⟩]
    · intro c _ hc
      rw [if_neg, zero_mul]
      intro hp
      exact hc ((col_eq_iff (col e) (hcol e) c).1 hp.2)
    · intro hn
      exact absurd (Finset.mem_univ _) hn
  · rw [if_neg hr]
    refine Finset.sum_eq_zero fun c _ => ?_
    rw [if_neg, zero_mul]
    intro hp
    exact hr hp.1

-- The dense adjacency times `X` is the sparse product: the same edge sums regrouped, which needs the entries real.
theorem dmm_adj_eq_spmm (row col : Fin E → BitVec 32) (vals : Fin E → EReal) {C : ℕ} (X : Fin N → Fin C → EReal)
    (hcol : ∀ e, 0 ≤ (col e).toInt ∧ (col e).toInt < (N : ℤ)) (hvals : ∀ e, IsReal (vals e)) (hX : IsReal2 X) :
    dmm (adj row col vals) X = spmm row col vals X := by
  obtain ⟨x, hx⟩ := hX.lift
  choose v hv using hvals
  funext i j
  unfold dmm adj spmm
  simp only [hv, hx]
  simp only [← EReal.coe_mul, ← coe_ite, ← coe_sum]
  rw [real_bridge row col v x hcol i j]

theorem step_spmm_real (row col : Fin E → BitVec 32) (vals : Fin E → EReal) (hvals : ∀ e, IsReal (vals e))
    {Cin Cout : ℕ} {h : Fin N → Fin Cin → EReal} {W : Fin Cin → Fin Cout → EReal}
    (hh : IsReal2 h) (hW : IsReal2 W) : IsReal2 (step (fun X => spmm row col vals X) h W) :=
  fun i j => (spmm_real row col vals hvals (proj_real hh hW) i j).relu

theorem step_dmm_eq_spmm (row col : Fin E → BitVec 32) (vals : Fin E → EReal)
    (hcol : ∀ e, 0 ≤ (col e).toInt ∧ (col e).toInt < (N : ℤ)) (hvals : ∀ e, IsReal (vals e))
    {Cin Cout : ℕ} (h : Fin N → Fin Cin → EReal) (W : Fin Cin → Fin Cout → EReal)
    (hh : IsReal2 h) (hW : IsReal2 W) :
    step (fun X => dmm (adj row col vals) X) h W = step (fun X => spmm row col vals X) h W := by
  funext i j
  show Cert.Spec.relu (dmm (adj row col vals) (proj h W) i j) = Cert.Spec.relu (spmm row col vals (proj h W) i j)
  rw [dmm_adj_eq_spmm row col vals (proj h W) hcol hvals (proj_real hh hW)]

-- The dense and the sparse specification agree on real inputs, layer by layer.
theorem denseResult_eq_sparseResult (row col : Fin E → BitVec 32) (vals : Fin E → EReal)
    (feat : Fin N → Fin 512 → EReal) (W0 : Fin 512 → Fin 32 → EReal) (W1 W2 W3 W4 W5 : Fin 32 → Fin 32 → EReal) (W6 : Fin 32 → Fin 16 → EReal)
    (hcol : ∀ e, 0 ≤ (col e).toInt ∧ (col e).toInt < (N : ℤ)) (hvals : ∀ e, IsReal (vals e)) (hfeat : IsReal2 feat)
    (hW0 : IsReal2 W0) (hW1 : IsReal2 W1) (hW2 : IsReal2 W2) (hW3 : IsReal2 W3) (hW4 : IsReal2 W4) (hW5 : IsReal2 W5) (hW6 : IsReal2 W6) :
    denseResult row col vals feat W0 W1 W2 W3 W4 W5 W6 = sparseResult row col vals feat W0 W1 W2 W3 W4 W5 W6 := by
  have r0 := step_spmm_real row col vals hvals hfeat hW0
  have r1 := step_spmm_real row col vals hvals r0 hW1
  have r2 := step_spmm_real row col vals hvals r1 hW2
  have r3 := step_spmm_real row col vals hvals r2 hW3
  have r4 := step_spmm_real row col vals hvals r3 hW4
  have r5 := step_spmm_real row col vals hvals r4 hW5
  unfold denseResult sparseResult encode
  rw [step_dmm_eq_spmm row col vals hcol hvals feat W0 hfeat hW0,
    step_dmm_eq_spmm row col vals hcol hvals _ W1 r0 hW1,
    step_dmm_eq_spmm row col vals hcol hvals _ W2 r1 hW2,
    step_dmm_eq_spmm row col vals hcol hvals _ W3 r2 hW3,
    step_dmm_eq_spmm row col vals hcol hvals _ W4 r3 hW4,
    step_dmm_eq_spmm row col vals hcol hvals _ W5 r4 hW5]
  exact congrArg decode (dmm_adj_eq_spmm row col vals _ hcol hvals (proj_real r5 hW6))

end Cert.Spec

end
-- ==== Proof.PreFacts.lean ====
import proofs.«403073_j42855183679829_3_alg».proof.Defs
import proofs.«403073_j42855183679829_3_alg».proof.Proof.Spec
import proofs.«403073_j42855183679829_3_alg».proof.Proof.Cur
import Idealize.ShloMosaic.Lib.ReduceAll
import Idealize.ShloMosaic.Lib.ValueIdx

noncomputable section

namespace Cert.PreFacts

open Cert.KernelIdeal Cert.Cur Idealize.ShloMosaic Idealize.ShloMosaic.ValueIdx

instance : Subsingleton (⟨0, ![]⟩ : Shape).Idx := ⟨fun _ _ => funext fun d => d.elim0⟩

theorem inf_bits : Ideal.ofBits .f32 0x7F800000#32 = (⊤ : EReal) := by
  simp [Ideal.ofBits, Ideal.ieee]

theorem isReal_of_abs_lt_top (x : EReal) (h : max x (-x) < ⊤) : Spec.IsReal x := by
  induction x using EReal.rec with
  | bot => simp at h
  | coe r => exact ⟨r, rfl⟩
  | top => simp at h

theorem ofBool_eq_one (b : Bool) : BitVec.ofBool b = 1#1 ↔ b = true := by cases b <;> decide

theorem isReal_of_bit (x : EReal)
    (h : Ideal.cmp .olt (max x (-x)) (Ideal.ofBits .f32 0x7F800000#32) = 1#1) : Spec.IsReal x := by
  rw [inf_bits] at h
  have h' : BitVec.ofBool (decide (max x (-x) < ⊤)) = 1#1 := h
  exact isReal_of_abs_lt_top x (of_decide_eq_true ((ofBool_eq_one _).1 h'))

theorem andi_ix0 (a b : IVec (⟨0, ![]⟩ : Shape) 1) : andi a b ix0 = 1#1 ↔ a ix0 = 1#1 ∧ b ix0 = 1#1 :=
  IntOp.andi_eq_one

theorem real_all {S : Shape} {axes : List (Fin S.rank)} (x : S.Idx → EReal)
    (hb : (⟨0, ![]⟩ : Shape).BroadcastsInDim S (![] : Fin 0 → Fin S.rank))
    (hr : S.ReducesTo axes ⟨0, ![]⟩) (h0 : 0 < (⟨0, ![]⟩ : Shape).numel) (init : IVec (⟨0, ![]⟩ : Shape) 1)
    (e : Host.reduce IntOp.andi
          (cmpf .olt (Host.absf (F := Ideal) (φ := .f32) x)
            (broadcastInDim S ![] hb (constant (F := Ideal) (⟨0, ![]⟩ : Shape) .f32 0x7F800000#32)))
          init hr h0 ix0 = 1#1) (i : S.Idx) : Spec.IsReal (x i) :=
  isReal_of_bit (x i) (Host.reduce_andi_all _ init hr h0 ix0 e i)

theorem range_all (x : IVec S320000 32)
    (hb : (⟨0, ![]⟩ : Shape).BroadcastsInDim S320000 (![] : Fin 0 → Fin S320000.rank))
    (hr : S320000.ReducesTo [0] ⟨0, ![]⟩) (h0 : 0 < (⟨0, ![]⟩ : Shape).numel) (init : IVec (⟨0, ![]⟩ : Shape) 1)
    (e : Host.reduce IntOp.andi
          (andi (cmpi .sge x (broadcastInDim S320000 ![] hb (constantI (⟨0, ![]⟩ : Shape) 32 0#32)))
                (cmpi .slt x (broadcastInDim S320000 ![] hb (constantI (⟨0, ![]⟩ : Shape) 32 10000#32))))
          init hr h0 ix0 = 1#1) (k : Fin 320000) : 0 ≤ (cur1 x k).toInt ∧ (cur1 x k).toInt < 10000 := by
  have hk := Host.reduce_andi_all _ init hr h0 ix0 e (ix1 k)
  have hk' : IntOp.andi (IntOp.cmpi .sge (x (ix1 k)) 0#32) (IntOp.cmpi .slt (x (ix1 k)) 10000#32) = 1#1 := hk
  obtain ⟨hge, hlt⟩ := IntOp.andi_eq_one.1 hk'
  have z : (0#32 : BitVec 32).toInt = 0 := by decide
  have t : (10000#32 : BitVec 32).toInt = 10000 := by decide
  exact ⟨z ▸ IntOp.cmpi_sge.1 hge, t ▸ IntOp.cmpi_slt.1 hlt⟩

variable [Cert.Pre_finite_inputs.Facts]

-- What the precondition gives: every float input entry is real, every edge index lies in [0, 10000).
theorem facts (m : (ℓ : Loc nD τ sig) → Buf (Elt Ideal) ℓ) (h : Cert.Pre_KernelIdeal m) (c : Dev nD) :
    Spec.IsReal2 (cur2 (m ((c.tc : Thread nD τ).loc main_arg0) : S10000x512.Idx → EReal))
    ∧ (∀ e, Spec.IsReal (cur1 (m ((c.tc : Thread nD τ).loc main_arg3) : S320000.Idx → EReal) e))
    ∧ Spec.IsReal2 (cur2 (m ((c.tc : Thread nD τ).loc main_arg4) : S512x32.Idx → EReal))
    ∧ Spec.IsReal2 (cur2 (m ((c.tc : Thread nD τ).loc main_arg5) : S32x32.Idx → EReal))
    ∧ Spec.IsReal2 (cur2 (m ((c.tc : Thread nD τ).loc main_arg6) : S32x32.Idx → EReal))
    ∧ Spec.IsReal2 (cur2 (m ((c.tc : Thread nD τ).loc main_arg7) : S32x32.Idx → EReal))
    ∧ Spec.IsReal2 (cur2 (m ((c.tc : Thread nD τ).loc main_arg8) : S32x32.Idx → EReal))
    ∧ Spec.IsReal2 (cur2 (m ((c.tc : Thread nD τ).loc main_arg9) : S32x32.Idx → EReal))
    ∧ Spec.IsReal2 (cur2 (m ((c.tc : Thread nD τ).loc main_arg10) : S32x16.Idx → EReal))
    ∧ (∀ e : Fin 320000, 0 ≤ (cur1 (m ((c.tc : Thread nD τ).loc main_arg1) : S320000.Idx → BitVec 32) e).toInt
        ∧ (cur1 (m ((c.tc : Thread nD τ).loc main_arg1) : S320000.Idx → BitVec 32) e).toInt < 10000)
    ∧ (∀ e : Fin 320000, 0 ≤ (cur1 (m ((c.tc : Thread nD τ).loc main_arg2) : S320000.Idx → BitVec 32) e).toInt
        ∧ (cur1 (m ((c.tc : Thread nD τ).loc main_arg2) : S320000.Idx → BitVec 32) e).toInt < 10000) := by
  have e := congrFun (h c) ix0
  unfold Cert.Pre_finite_inputs.fn Cert.Pre_finite_inputs.fn_part1 Cert.Pre_finite_inputs.fn_part2
    Cert.Pre_finite_inputs.fn_part3 at e
  dsimp only at e
  simp only [andi_ix0] at e
  obtain ⟨⟨⟨⟨⟨⟨⟨⟨⟨⟨h0, h3⟩, h4⟩, h5⟩, h6⟩, h7⟩, h8⟩, h9⟩, h10⟩, h1⟩, h2⟩ := e
  exact ⟨fun a b => real_all _ _ _ _ _ h0 (ix2 a b), fun k => real_all _ _ _ _ _ h3 (ix1 k),
    fun a b => real_all _ _ _ _ _ h4 (ix2 a b), fun a b => real_all _ _ _ _ _ h5 (ix2 a b),
    fun a b => real_all _ _ _ _ _ h6 (ix2 a b), fun a b => real_all _ _ _ _ _ h7 (ix2 a b),
    fun a b => real_all _ _ _ _ _ h8 (ix2 a b), fun a b => real_all _ _ _ _ _ h9 (ix2 a b),
    fun a b => real_all _ _ _ _ _ h10 (ix2 a b), fun k => range_all _ _ _ _ _ h1 k, fun k => range_all _ _ _ _ _ h2 k⟩

end Cert.PreFacts

end
-- ==== Proof.Claims.lean ====
import proofs.«403073_j42855183679829_3_alg».proof.Defs
import proofs.«403073_j42855183679829_3_alg».proof.Proof.KiFinal
import proofs.«403073_j42855183679829_3_alg».proof.Proof.KFinal
import proofs.«403073_j42855183679829_3_alg».proof.Proof.KiResult
import proofs.«403073_j42855183679829_3_alg».proof.Proof.RefValue
import proofs.«403073_j42855183679829_3_alg».proof.Proof.Bridge
import proofs.«403073_j42855183679829_3_alg».proof.Proof.PreFacts
import proofs.«403073_j42855183679829_3_alg».proof.Proof.Gen.Kernel
import proofs.«403073_j42855183679829_3_alg».proof.Proof.Gen.KernelIdeal
import proofs.«403073_j42855183679829_3_alg».proof.Proof.Gen.ReferenceIdeal
import proofs.«403073_j42855183679829_3_alg».proof.Proof.Gen.Pre_finite_inputs
import proofs.«403073_j42855183679829_3_alg».proof.Proof.Gen.ReferenceIdeal.Run

noncomputable section

namespace Cert.Proof.Claims

open Idealize.ShloMosaic Idealize.ShloMosaic.TcCoe Idealize.SL.Sem

theorem frame_k : Cert.frame_Kernel := fun m ρ _ =>
  (θ_run Cert.Kernel.defs _ _).mono (fun _ h c => (h c).2) (Cert.Kernel.Reg.run_value m ρ)

theorem frame_ki : Cert.frame_KernelIdeal := fun m ρ _ =>
  (θ_run Cert.KernelIdeal.defs _ _).mono (fun _ h c => (h c).2) (Cert.KernelIdeal.Reg.run_value m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

-- The kernel's run ends at the dense specification, the reference's at the sparse one; they agree on real inputs with in-range indices.
open Cert.KernelIdeal.Reg Cert.ReferenceIdeal.RefValue in
theorem algebraic : Cert.algebraic_KernelIdeal_ReferenceIdeal := by
  intro m ρ m' ρ' hpre hagree
  refine ⟨fun c => Cert.KernelIdeal.Gen.V16 m (outsOf m) c Cert.KernelIdeal.main_v38, Cert.KernelIdeal.Reg.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hfeat, hvals, hW0, hW1, hW2, hW3, hW4, hW5, hW6, hrow, hcol⟩ := Cert.PreFacts.facts m hpre c
  obtain ⟨a0, a1, a2, a3, a4, a5, a6, a7, a8, a9, a10⟩ := hagree c

  have e1 : rowA m' c = rowK m c := by show Cert.Cur.cur1 _ = Cert.Cur.cur1 _; rw [a1]
  have e2 : colA m' c = colK m c := by show Cert.Cur.cur1 _ = Cert.Cur.cur1 _; rw [a2]
  have e3 : valsA m' c = valsK m c := by show Cert.Cur.cur1 _ = Cert.Cur.cur1 _; rw [a3]
  have e0 : featA m' c = featK m c := by show Cert.Cur.cur2 _ = Cert.Cur.cur2 _; rw [a0]
  have e4 : w0A m' c = w0K m c := by show Cert.Cur.cur2 _ = Cert.Cur.cur2 _; rw [a4]
  have e5 : w1A m' c = w1K m c := by show Cert.Cur.cur2 _ = Cert.Cur.cur2 _; rw [a5]
  have e6 : w2A m' c = w2K m c := by show Cert.Cur.cur2 _ = Cert.Cur.cur2 _; rw [a6]
  have e7 : w3A m' c = w3K m c := by show Cert.Cur.cur2 _ = Cert.Cur.cur2 _; rw [a7]
  have e8 : w4A m' c = w4K m c := by show Cert.Cur.cur2 _ = Cert.Cur.cur2 _; rw [a8]
  have e9 : w5A m' c = w5K m c := by show Cert.Cur.cur2 _ = Cert.Cur.cur2 _; rw [a9]
  have e10 : w6A m' c = w6K m c := by show Cert.Cur.cur2 _ = Cert.Cur.cur2 _; rw [a10]
  have hk := Cert.KernelIdeal.Reg.result_eq m (outsOf m) (outsOf_ok m) c hrow hcol
  have hr := Cert.ReferenceIdeal.RefValue.res_eq m' c (by rw [e2]; exact hcol) (by rw [e1]; exact hrow)
  rw [e1, e2, e3, e0, e4, e5, e6, e7, e8, e9, e10] at hr
  have hb := Cert.Spec.denseResult_eq_sparseResult (rowK m c) (colK m c) (valsK m c) (featK m c) (w0K m c) (w1K m c) (w2K m c) (w3K m c)
    (w4K m c) (w5K m c) (w6K m c) hcol hvals hfeat hW0 hW1 hW2 hW3 hW4 hW5 hW6
  exact hr.trans ((congrArg Cert.Cur.flat2 hb.symm).trans hk.symm)

end Cert.Proof.Claims

end
-- ==== Proof.lean ====
import proofs.«403073_j42855183679829_3_alg».proof.Defs
import proofs.«403073_j42855183679829_3_alg».proof.Proof.Claims
import proofs.«403073_j42855183679829_3_alg».proof.Proof.Gen.Kernel
import proofs.«403073_j42855183679829_3_alg».proof.Proof.Gen.KernelIdeal
import proofs.«403073_j42855183679829_3_alg».proof.Proof.Gen.ReferenceIdeal
import proofs.«403073_j42855183679829_3_alg».proof.Proof.Gen.Pre_finite_inputs
import Idealize.ShloMosaic.Adequacy
import Idealize.ShloMosaic.Init

noncomputable section

namespace Cert.Proof

open Idealize.ShloMosaic Idealize.SL.Sem

-- The five conjuncts, behind the witnesses of the programs' stated side conditions.
theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
